-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x320 : Shape := ⟨2, ![262144, 320]⟩
abbrev S16384x3 : Shape := ⟨2, ![16384, 3]⟩
abbrev S16384 : Shape := ⟨1, ![16384]⟩
abbrev S35x512 : Shape := ⟨2, ![35, 512]⟩
abbrev S512 : Shape := ⟨1, ![512]⟩
abbrev S512x3 : Shape := ⟨2, ![512, 3]⟩
abbrev S3 : Shape := ⟨1, ![3]⟩
abbrev S_ : Shape := ⟨0, ![]⟩

class Facts : Prop where
  bcast_S_S262144x320 : S_.BroadcastsInDim S262144x320 (![] : Fin 0 → Fin S262144x320.rank)
  reducesTo_S262144x320_S_d0_1 : S262144x320.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_
  bcast_S_S35x512 : S_.BroadcastsInDim S35x512 (![] : Fin 0 → Fin S35x512.rank)
  reducesTo_S35x512_S_d0_1 : S35x512.ReducesTo [0, 1] S_
  bcast_S_S512 : S_.BroadcastsInDim S512 (![] : Fin 0 → Fin S512.rank)
  reducesTo_S512_S_d0 : S512.ReducesTo [0] S_
  bcast_S_S512x3 : S_.BroadcastsInDim S512x3 (![] : Fin 0 → Fin S512x3.rank)
  reducesTo_S512x3_S_d0_1 : S512x3.ReducesTo [0, 1] S_
  bcast_S_S3 : S_.BroadcastsInDim S3 (![] : Fin 0 → Fin S3.rank)
  reducesTo_S3_S_d0 : S3.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg2 : IVec S16384 32) (main_v48 : IVec S_ 1) (main_v50 : IVec S16384 1) : IVec S_ 1 :=
  let main_c_19 : IVec S_ 32 := constantI S_ 32 1024#32
  let main_v51 : IVec S16384 32 := broadcastInDim S16384 ![] bcast_S_S16384 main_c_19
  let main_v52 : IVec S16384 1 := cmpi .slt main_arg2 main_v51
  let main_v53 : IVec S16384 1 := andi main_v50 main_v52
  let main_c_20 : IVec S_ 1 := constantI S_ 1 1#1
  let main_v54 : IVec S_ 1 := (fun x v => Host.reduce IntOp.andi x v reducesTo_S16384_S_d0 h_S_) main_v53 main_c_20
  let main_v55 : IVec S_ 1 := andi main_v48 main_v54
  main_v55

def fn_part2 {F : FTy → Type} [FloatOps F] (main_arg2 : IVec S16384 32) (main_arg8 : FVec F S512 .f32) (main_arg9 : FVec F S512x3 .f32) (main_arg10 : FVec F S3 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x3 .f32 := Host.absf main_arg9
  let main_cst_14 : FVec F S_ .f32 := constant S_ .f32 0x7F800000#32
  let main_v40 : FVec F S512x3 .f32 := broadcastInDim S512x3 ![] bcast_S_S512x3 main_cst_14
  let main_v41 : IVec S512x3 1 := cmpf .olt main_v39 main_v40
  let main_c_15 : IVec S_ 1 := constantI S_ 1 1#1
  let main_v42 : IVec S_ 1 := (fun x v => Host.reduce IntOp.andi x v reducesTo_S512x3_S_d0_1 h_S_) main_v41 main_c_15
  let main_v43 : IVec S_ 1 := andi main_v38 main_v42
  let main_v44 : FVec F S3 .f32 := Host.absf main_arg10
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_c_18 : IVec S_ 32 := constantI S_ 32 0#32
  let main_v49 : IVec S16384 32 := broadcastInDim S16384 ![] bcast_S_S16384 main_c_18
  let main_v50 : IVec S16384 1 := cmpi .sge main_arg2 main_v49
  fn_part3 (F := F) main_arg2 main_v48 main_v50

def fn_part1 {F : FTy → Type} [FloatOps F] (main_arg2 : IVec S16384 32) (main_arg5 : FVec F S512 .f32) (main_arg6 : FVec F S512 .f32) (main_arg7 : FVec F S512 .f32) (main_arg8 : FVec F S512 .f32) (main_arg9 : FVec F S512x3 .f32) (main_arg10 : FVec F S3 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg2 main_arg8 main_arg9 main_arg10 main_v33

def fn {F : FTy → Type} [FloatOps F] (main_arg0 : FVec F S262144x320 .f32) (main_arg1 : FVec F S16384x3 .f32) (main_arg2 : IVec S16384 32) (main_arg3 : FVec F S35x512 .f32) (main_arg4 : FVec F S512 .f32) (main_arg5 : FVec F S512 .f32) (main_arg6 : FVec F S512 .f32) (main_arg7 : FVec F S512 .f32) (main_arg8 : FVec F S512 .f32) (main_arg9 : FVec F S512x3 .f32) (main_arg10 : FVec F S3 .f32) : IVec S_ 1 :=
  let main_v0 : FVec F S262144x320 .f32 := Host.absf main_arg0
  let main_cst : FVec F S_ .f32 := constant S_ .f32 0x7F800000#32
  let main_v1 : FVec F S262144x320 .f32 := broadcastInDim S262144x320 ![] bcast_S_S262144x320 main_cst
  let main_v2 : IVec S262144x320 1 := cmpf .olt main_v0 main_v1
  let main_c : IVec S_ 1 := constantI S_ 1 1#1
  let main_v3 : IVec S_ 1 := (fun x v => Host.reduce IntOp.andi x v reducesTo_S262144x320_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S35x512 .f32 := Host.absf main_arg3
  let main_cst_2 : FVec F S_ .f32 := constant S_ .f32 0x7F800000#32
  let main_v10 : FVec F S35x512 .f32 := broadcastInDim S35x512 ![] bcast_S_S35x512 main_cst_2
  let main_v11 : IVec S35x512 1 := cmpf .olt main_v9 main_v10
  let main_c_3 : IVec S_ 1 := constantI S_ 1 1#1
  let main_v12 : IVec S_ 1 := (fun x v => Host.reduce IntOp.andi x v reducesTo_S35x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_v13 main_v16
-- ==== Kernel.lean ====
abbrev S262144x320 : Shape := ⟨2, ![262144, 320]⟩
abbrev S16384x3 : Shape := ⟨2, ![16384, 3]⟩
abbrev S16384 : Shape := ⟨1, ![16384]⟩
abbrev S35x512 : Shape := ⟨2, ![35, 512]⟩
abbrev S512 : Shape := ⟨1, ![512]⟩
abbrev S512x3 : Shape := ⟨2, ![512, 3]⟩
abbrev S3 : Shape := ⟨1, ![3]⟩
abbrev S16x16384x320 : Shape := ⟨3, ![16, 16384, 320]⟩
abbrev S320 : Shape := ⟨1, ![320]⟩
abbrev S320x1 : Shape := ⟨2, ![320, 1]⟩
abbrev S32 : Shape := ⟨1, ![32]⟩
abbrev S1x32 : Shape := ⟨2, ![1, 32]⟩
abbrev S_ : Shape := ⟨0, ![]⟩
abbrev S320x32 : Shape := ⟨2, ![320, 32]⟩
abbrev S2x1024x512 : Shape := ⟨3, ![2, 1024, 512]⟩
abbrev S16x512x320 : Shape := ⟨3, ![16, 512, 320]⟩
abbrev S1x1024x512 : Shape := ⟨3, ![1, 1024, 512]⟩
abbrev S1024x512 : Shape := ⟨2, ![1024, 512]⟩
abbrev S1x512 : Shape := ⟨2, ![1, 512]⟩
abbrev S1x512x320 : Shape := ⟨3, ![1, 512, 320]⟩
abbrev S512x320 : Shape := ⟨2, ![512, 320]⟩
abbrev S512x32 : Shape := ⟨2, ![512, 32]⟩
abbrev S512x512 : Shape := ⟨2, ![512, 512]⟩
abbrev S1024 : Shape := ⟨1, ![1024]⟩
abbrev S16384x1 : Shape := ⟨2, ![16384, 1]⟩
abbrev S1024x1 : Shape := ⟨2, ![1024, 1]⟩
abbrev S32x512 : Shape := ⟨2, ![32, 512]⟩
abbrev S3x512 : Shape := ⟨2, ![3, 512]⟩
abbrev S1x3 : Shape := ⟨2, ![1, 3]⟩
abbrev S16x3x16384 : Shape := ⟨3, ![16, 3, 16384]⟩
abbrev S16x3x512 : Shape := ⟨3, ![16, 3, 512]⟩
abbrev S512x1024 : Shape := ⟨2, ![512, 1024]⟩
abbrev S512x1 : Shape := ⟨2, ![512, 1]⟩
abbrev S1x3x512 : Shape := ⟨3, ![1, 3, 512]⟩
abbrev S16x16384x3 : Shape := ⟨3, ![16, 16384, 3]⟩
abbrev S262144x3 : Shape := ⟨2, ![262144, 3]⟩

abbrev nBuf : Space → Nat
  | .hbm => 70
  | .vmem => 25
  | .smem => 0
  | _ => 0

abbrev bufTy : (tb : Table) → Fin (tcTables nBuf tb) → BufTy
  | .hbm, ⟨0, _⟩ => ⟨S262144x320, .f32⟩
  | .hbm, ⟨1, _⟩ => ⟨S16384x3, .f32⟩
  | .hbm, ⟨2, _⟩ => ⟨S16384, .i32⟩
  | .hbm, ⟨3, _⟩ => ⟨S35x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x3, .f32⟩
  | .hbm, ⟨10, _⟩ => ⟨S3, .f32⟩
  | .hbm, ⟨11, _⟩ => ⟨S16x16384x320, .f32⟩
  | .hbm, ⟨12, _⟩ => ⟨S320, .i32⟩
  | .hbm, ⟨13, _⟩ => ⟨S320x1, .i32⟩
  | .hbm, ⟨14, _⟩ => ⟨S32, .i32⟩
  | .hbm, ⟨15, _⟩ => ⟨S1x32, .i32⟩
  | .hbm, ⟨16, _⟩ => ⟨S_, .i32⟩
  | .hbm, ⟨17, _⟩ => ⟨S_, .i32⟩
  | .hbm, ⟨18, _⟩ => ⟨S320x1, .i32⟩
  | .hbm, ⟨19, _⟩ => ⟨S320x1, .i32⟩
  | .hbm, ⟨20, _⟩ => ⟨S320x1, .i32⟩
  | .hbm, ⟨21, _⟩ => ⟨S_, .i32⟩
  | .hbm, ⟨22, _⟩ => ⟨S320x1, .i32⟩
  | .hbm, ⟨23, _⟩ => ⟨S320x1, .i1⟩
  | .hbm, ⟨24, _⟩ => ⟨S320x1, .i32⟩
  | .hbm, ⟨25, _⟩ => ⟨S320x1, .i32⟩
  | .hbm, ⟨26, _⟩ => ⟨S_, .i32⟩
  | .hbm, ⟨27, _⟩ => ⟨S320x1, .i32⟩
  | .hbm, ⟨28, _⟩ => ⟨S320x1, .i1⟩
  | .hbm, ⟨29, _⟩ => ⟨S320x1, .i1⟩
  | .hbm, ⟨30, _⟩ => ⟨S_, .i32⟩
  | .hbm, ⟨31, _⟩ => ⟨S320x1, .i32⟩
  | .hbm, ⟨32, _⟩ => ⟨S320x1, .i32⟩
  | .hbm, ⟨33, _⟩ => ⟨S320x1, .i32⟩
  | .hbm, ⟨34, _⟩ => ⟨S320x32, .i32⟩
  | .hbm, ⟨35, _⟩ => ⟨S320x32, .i32⟩
  | .hbm, ⟨36, _⟩ => ⟨S320x32, .i1⟩
  | .hbm, ⟨37, _⟩ => ⟨S_, .f32⟩
  | .hbm, ⟨38, _⟩ => ⟨S_, .f32⟩
  | .hbm, ⟨39, _⟩ => ⟨S320x32, .f32⟩
  | .hbm, ⟨40, _⟩ => ⟨S320x32, .f32⟩
  | .hbm, ⟨41, _⟩ => ⟨S320x32, .f32⟩
  | .hbm, ⟨42, _⟩ => ⟨S2x1024x512, .f32⟩
  | .hbm, ⟨43, _⟩ => ⟨S_, .f32⟩
  | .hbm, ⟨44, _⟩ => ⟨S16384, .f32⟩
  | .hbm, ⟨45, _⟩ => ⟨S_, .f32⟩
  | .hbm, ⟨46, _⟩ => ⟨S1024, .f32⟩
  | .hbm, ⟨47, _⟩ => ⟨S16384x1, .i32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024x1, .f32⟩
  | .hbm, ⟨59, _⟩ => ⟨S32x512, .f32⟩
  | .hbm, ⟨60, _⟩ => ⟨S3x512, .f32⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S1x3, .f32⟩
  | .hbm, ⟨67, _⟩ => ⟨S16x3x16384, .f32⟩
  | .hbm, ⟨68, _⟩ => ⟨S16x16384x3, .f32⟩
  | .hbm, ⟨69, _⟩ => ⟨S262144x3, .f32⟩
  | .local _ .vmem, ⟨0, _⟩ => ⟨S16x512x320, .f32⟩
  | .local _ .vmem, ⟨1, _⟩ => ⟨S16x512x320, .f32⟩
  | .local _ .vmem, ⟨2, _⟩ => ⟨S512, .i32⟩
  | .local _ .vmem, ⟨3, _⟩ => ⟨S512, .i32⟩
  | .local _ .vmem, ⟨4, _⟩ => ⟨S320x32, .f32⟩
  | .local _ .vmem, ⟨5, _⟩ => ⟨S1x1024x512, .f32⟩
  | .local _ .vmem, ⟨6, _⟩ => ⟨S1x1024x512, .f32⟩
  | .local _ .vmem, ⟨7, _⟩ => ⟨S1024x512, .f32⟩
  | .local _ .vmem, ⟨8, _⟩ => ⟨S512, .i32⟩
  | .local _ .vmem, ⟨9, _⟩ => ⟨S512, .i32⟩
  | .local _ .vmem, ⟨10, _⟩ => ⟨S2x1024x512, .f32⟩
  | .local _ .vmem, ⟨11, _⟩ => ⟨S1024x1, .f32⟩
  | .local _ .vmem, ⟨12, _⟩ => ⟨S512x3, .f32⟩
  | .local _ .vmem, ⟨13, _⟩ => ⟨S512x3, .f32⟩
  | .local _ .vmem, ⟨14, _⟩ => ⟨S32x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S512x3, .f32⟩
  | .local _ .vmem, ⟨22, _⟩ => ⟨S1x3, .f32⟩
  | .local _ .vmem, ⟨23, _⟩ => ⟨S16x3x512, .f32⟩
  | .local _ .vmem, ⟨24, _⟩ => ⟨S16x3x512, .f32⟩
  | _, _ => ⟨S262144x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_3 : Ref sig .tc := ⟨.hbm, 49, rfl⟩
abbrev main_v15 : Ref sig .tc := ⟨.hbm, 50, rfl⟩
abbrev main_v16 : Ref sig .tc := ⟨.hbm, 51, rfl⟩
abbrev main_cst_4 : Ref sig .tc := ⟨.hbm, 52, rfl⟩
abbrev main_v17 : Ref sig .tc := ⟨.hbm, 53, rfl⟩
abbrev main_v18 : Ref sig .tc := ⟨.hbm, 54, rfl⟩
abbrev main_cst_5 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem13_1 : DmaSem sig := 23

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v105 : BitVec 1 := Scalar.cmpi .eq arg1 c15_i32
  let v106 : BitVec 32 := Scalar.extui v105
  let c0_i32_57 : BitVec 32 := 0#32
  let v107 : BitVec 1 := Scalar.cmpi .ne v106 c0_i32_57
  v107

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S320x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![32], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x3 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x3 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S16x3x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  shapeCasts_S262144x320_S16x16384x320 : S262144x320.ShapeCasts S16x16384x320
  bcast_S320_S320x1_0 : S320.BroadcastsInDim S320x1 (![0] : Fin 1 → Fin S320x1.rank)
  bcast_S32_S1x32_1 : S32.BroadcastsInDim S1x32 (![1] : Fin 1 → Fin S1x32.rank)
  bcast_S_S320x1 : S_.BroadcastsInDim S320x1 (![] : Fin 0 → Fin S320x1.rank)
  bcast_S320x1_S320x32_0_1 : S320x1.BroadcastsInDim S320x32 (![0, 1] : Fin 2 → Fin S320x32.rank)
  bcast_S1x32_S320x32_0_1 : S1x32.BroadcastsInDim S320x32 (![0, 1] : Fin 2 → Fin S320x32.rank)
  bcast_S_S320x32 : S_.BroadcastsInDim S320x32 (![] : Fin 0 → Fin S320x32.rank)
  inb_S512_S512_0 : ∀ a, (![0] : Fin 1 → Nat) a + S512.size a ≤ S512.size a
  h_S512 : 0 < S512.numel
  inb_S320x32_S320x32_0_0 : ∀ a, (![0, 0] : Fin 2 → Nat) a + S320x32.size a ≤ S320x32.size a
  h_S320x32 : 0 < S320x32.numel
  shapeCasts_S320x32_S320x32 : S320x32.ShapeCasts S320x32
  bitsLt_bf16_f32 : FTy.bits .bf16 < FTy.bits .f32
  iota_S1024x512_d0_w32 : S1024x512.Iotas .tc 32 [0]
  shapeCasts_S512_S1x512 : S512.ShapeCasts S1x512
  broadcasts_S1x512_S1024x512 : S1x512.Broadcasts S1024x512
  natLt_1_32 : 1 < 32
  inb_S16x512x320_S1x512x320_0_0_0 : ∀ a, (![0, 0, 0] : Fin 3 → Nat) a + S1x512x320.size a ≤ S16x512x320.size a
  h_S1x512x320 : 0 < S1x512x320.numel
  shapeCasts_S1x512x320_S512x320 : S1x512x320.ShapeCasts S512x320
  inb_S16x512x320_S1x512x320_1_0_0 : ∀ a, (![1, 0, 0] : Fin 3 → Nat) a + S1x512x320.size a ≤ S16x512x320.size a
  inb_S16x512x320_S1x512x320_2_0_0 : ∀ a, (![2, 0, 0] : Fin 3 → Nat) a + S1x512x320.size a ≤ S16x512x320.size a
  inb_S16x512x320_S1x512x320_3_0_0 : ∀ a, (![3, 0, 0] : Fin 3 → Nat) a + S1x512x320.size a ≤ S16x512x320.size a
  inb_S16x512x320_S1x512x320_4_0_0 : ∀ a, (![4, 0, 0] : Fin 3 → Nat) a + S1x512x320.size a ≤ S16x512x320.size a
  inb_S16x512x320_S1x512x320_5_0_0 : ∀ a, (![5, 0, 0] : Fin 3 → Nat) a + S1x512x320.size a ≤ S16x512x320.size a
  inb_S16x512x320_S1x512x320_6_0_0 : ∀ a, (![6, 0, 0] : Fin 3 → Nat) a + S1x512x320.size a ≤ S16x512x320.size a
  inb_S16x512x320_S1x512x320_7_0_0 : ∀ a, (![7, 0, 0] : Fin 3 → Nat) a + S1x512x320.size a ≤ S16x512x320.size a
  inb_S16x512x320_S1x512x320_8_0_0 : ∀ a, (![8, 0, 0] : Fin 3 → Nat) a + S1x512x320.size a ≤ S16x512x320.size a
  inb_S16x512x320_S1x512x320_9_0_0 : ∀ a, (![9, 0, 0] : Fin 3 → Nat) a + S1x512x320.size a ≤ S16x512x320.size a
  inb_S16x512x320_S1x512x320_10_0_0 : ∀ a, (![10, 0, 0] : Fin 3 → Nat) a + S1x512x320.size a ≤ S16x512x320.size a
  inb_S16x512x320_S1x512x320_11_0_0 : ∀ a, (![11, 0, 0] : Fin 3 → Nat) a + S1x512x320.size a ≤ S16x512x320.size a
  inb_S16x512x320_S1x512x320_12_0_0 : ∀ a, (![12, 0, 0] : Fin 3 → Nat) a + S1x512x320.size a ≤ S16x512x320.size a
  inb_S16x512x320_S1x512x320_13_0_0 : ∀ a, (![13, 0, 0] : Fin 3 → Nat) a + S1x512x320.size a ≤ S16x512x320.size a
  inb_S16x512x320_S1x512x320_14_0_0 : ∀ a, (![14, 0, 0] : Fin 3 → Nat) a + S1x512x320.size a ≤ S16x512x320.size a
  inb_S16x512x320_S1x512x320_15_0_0 : ∀ a, (![15, 0, 0] : Fin 3 → Nat) a + S1x512x320.size a ≤ S16x512x320.size a
  concatenates_S512x32_S512x32_S512x32_S512x32_S512x32_S512x32_S512x32_S512x32_S512x32_S512x32_S512x32_S512x32_S512x32_S512x32_S512x32_S512x32_S512x512_d1 : Shape.Concatenates [S512x32, S512x32, S512x32, S512x32, S512x32, S512x32, S512x32, S512x32, S512x32, S512x32, S512x32, S512x32, S512x32, S512x32, S512x32, S512x32] S512x512 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  bcast_S_S16384 : S_.BroadcastsInDim S16384 (![] : Fin 0 → Fin S16384.rank)
  bcast_S_S1024 : S_.BroadcastsInDim S1024 (![] : Fin 0 → Fin S1024.rank)
  bcast_S16384_S16384x1_0 : S16384.BroadcastsInDim S16384x1 (![0] : Fin 1 → Fin S16384x1.rank)
  shapeCasts_S1024_S1024x1 : S1024.ShapeCasts S1024x1
  slices_S35x512_S32x512_0_0 : S35x512.Slices ![0, 0] S32x512
  slices_S35x512_S3x512_32_0 : S35x512.Slices ![32, 0] S3x512
  shapeCasts_S3_S1x3 : S3.ShapeCasts S1x3
  iota_S512x1024_d1_w32 : S512x1024.Iotas .tc 32 [1]
  shapeCasts_S512_S512x1 : S512.ShapeCasts S512x1
  broadcasts_S512x1_S512x1024 : S512x1.Broadcasts S512x1024
  inb_S2x1024x512_S2x1024x512_0_0_0 : ∀ a, (![0, 0, 0] : Fin 3 → Nat) a + S2x1024x512.size a ≤ S2x1024x512.size a
  h_S2x1024x512 : 0 < S2x1024x512.numel
  shapeCasts_S2x1024x512_S2x1024x512 : S2x1024x512.ShapeCasts S2x1024x512
  slices_S2x1024x512_o0_0_0_S1x1024x512 : S2x1024x512.Slices ![0, 0, 0] S1x1024x512
  slices_S2x1024x512_o1_0_0_S1x1024x512 : S2x1024x512.Slices ![1, 0, 0] S1x1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S512x3_S512x3_0_0 : ∀ a, (![0, 0] : Fin 2 → Nat) a + S512x3.size a ≤ S512x3.size a
  h_S512x3 : 0 < S512x3.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S512 : S1x512.ShapeCasts S512
  inb_S1x3_S1x3_0_0 : ∀ a, (![0, 0] : Fin 2 → Nat) a + S1x3.size a ≤ S1x3.size a
  h_S1x3 : 0 < S1x3.numel
  shapeCasts_S1x3_S1x3 : S1x3.ShapeCasts S1x3
  shapeCasts_S1x3_S3 : S1x3.ShapeCasts S3
  broadcasts_S1x512_S512x512 : S1x512.Broadcasts S512x512
  slices_S512x512_o0_0_S512x32 : S512x512.Slices ![0, 0] S512x32
  broadcasts_S1x3_S512x3 : S1x3.Broadcasts S512x3
  transposes_S512x3_p1_0_S3x512 : S512x3.Transposes [1, 0] S3x512
  inb_S16x3x512_S1x3x512_0_0_0 : ∀ a, (![0, 0, 0] : Fin 3 → Nat) a + S1x3x512.size a ≤ S16x3x512.size a
  h_S1x3x512 : 0 < S1x3x512.numel
  shapeCasts_S1x3x512_S3x512 : S1x3x512.ShapeCasts S3x512
  shapeCasts_S3x512_S1x3x512 : S3x512.ShapeCasts S1x3x512
  slices_S512x512_o0_32_S512x32 : S512x512.Slices ![0, 32] S512x32
  inb_S16x3x512_S1x3x512_1_0_0 : ∀ a, (![1, 0, 0] : Fin 3 → Nat) a + S1x3x512.size a ≤ S16x3x512.size a
  slices_S512x512_o0_64_S512x32 : S512x512.Slices ![0, 64] S512x32
  inb_S16x3x512_S1x3x512_2_0_0 : ∀ a, (![2, 0, 0] : Fin 3 → Nat) a + S1x3x512.size a ≤ S16x3x512.size a
  slices_S512x512_o0_96_S512x32 : S512x512.Slices ![0, 96] S512x32
  inb_S16x3x512_S1x3x512_3_0_0 : ∀ a, (![3, 0, 0] : Fin 3 → Nat) a + S1x3x512.size a ≤ S16x3x512.size a
  slices_S512x512_o0_128_S512x32 : S512x512.Slices ![0, 128] S512x32
  inb_S16x3x512_S1x3x512_4_0_0 : ∀ a, (![4, 0, 0] : Fin 3 → Nat) a + S1x3x512.size a ≤ S16x3x512.size a
  slices_S512x512_o0_160_S512x32 : S512x512.Slices ![0, 160] S512x32
  inb_S16x3x512_S1x3x512_5_0_0 : ∀ a, (![5, 0, 0] : Fin 3 → Nat) a + S1x3x512.size a ≤ S16x3x512.size a
  slices_S512x512_o0_192_S512x32 : S512x512.Slices ![0, 192] S512x32
  inb_S16x3x512_S1x3x512_6_0_0 : ∀ a, (![6, 0, 0] : Fin 3 → Nat) a + S1x3x512.size a ≤ S16x3x512.size a
  slices_S512x512_o0_224_S512x32 : S512x512.Slices ![0, 224] S512x32
  inb_S16x3x512_S1x3x512_7_0_0 : ∀ a, (![7, 0, 0] : Fin 3 → Nat) a + S1x3x512.size a ≤ S16x3x512.size a
  slices_S512x512_o0_256_S512x32 : S512x512.Slices ![0, 256] S512x32
  inb_S16x3x512_S1x3x512_8_0_0 : ∀ a, (![8, 0, 0] : Fin 3 → Nat) a + S1x3x512.size a ≤ S16x3x512.size a
  slices_S512x512_o0_288_S512x32 : S512x512.Slices ![0, 288] S512x32
  inb_S16x3x512_S1x3x512_9_0_0 : ∀ a, (![9, 0, 0] : Fin 3 → Nat) a + S1x3x512.size a ≤ S16x3x512.size a
  slices_S512x512_o0_320_S512x32 : S512x512.Slices ![0, 320] S512x32
  inb_S16x3x512_S1x3x512_10_0_0 : ∀ a, (![10, 0, 0] : Fin 3 → Nat) a + S1x3x512.size a ≤ S16x3x512.size a
  slices_S512x512_o0_352_S512x32 : S512x512.Slices ![0, 352] S512x32
  inb_S16x3x512_S1x3x512_11_0_0 : ∀ a, (![11, 0, 0] : Fin 3 → Nat) a + S1x3x512.size a ≤ S16x3x512.size a
  slices_S512x512_o0_384_S512x32 : S512x512.Slices ![0, 384] S512x32
  inb_S16x3x512_S1x3x512_12_0_0 : ∀ a, (![12, 0, 0] : Fin 3 → Nat) a + S1x3x512.size a ≤ S16x3x512.size a
  slices_S512x512_o0_416_S512x32 : S512x512.Slices ![0, 416] S512x32
  inb_S16x3x512_S1x3x512_13_0_0 : ∀ a, (![13, 0, 0] : Fin 3 → Nat) a + S1x3x512.size a ≤ S16x3x512.size a
  slices_S512x512_o0_448_S512x32 : S512x512.Slices ![0, 448] S512x32
  inb_S16x3x512_S1x3x512_14_0_0 : ∀ a, (![14, 0, 0] : Fin 3 → Nat) a + S1x3x512.size a ≤ S16x3x512.size a
  slices_S512x512_o0_480_S512x32 : S512x512.Slices ![0, 480] S512x32
  inb_S16x3x512_S1x3x512_15_0_0 : ∀ a, (![15, 0, 0] : Fin 3 → Nat) a + S1x3x512.size a ≤ S16x3x512.size a
  transposes_S16x3x16384_S16x16384x3_0_2_1 : S16x3x16384.Transposes [0, 2, 1] S16x16384x3
  shapeCasts_S16x16384x3_S262144x3 : S16x16384x3.ShapeCasts S262144x3
  dot_S512x320_S320x32_S512x32_1_0_0_1_n_n_wf : DotDims.WF S512x320 S320x32 S512x32 [1] [0] [0] [1] [] []
  dot_S1024x512_S512x512_S1024x512_1_0_0_1_n_n_wf : DotDims.WF S1024x512 S512x512 S1024x512 [1] [0] [0] [1] [] []
  scatter_S1024_S16384x1_S16384_n_0_0_1_wf : ScatterDims.WF S1024 S16384x1 S16384 [] [0] [0] 1
  dot_S512x1024_S1024x512_S512x512_1_0_0_1_n_n_wf : DotDims.WF S512x1024 S1024x512 S512x512 [1] [0] [0] [1] [] []
  dot_S512x3_S3x512_S512x512_1_0_0_1_n_n_wf : DotDims.WF S512x3 S3x512 S512x512 [1] [0] [0] [1] [] []
  dot_S512x32_S32x512_S512x512_1_0_0_1_n_n_wf : DotDims.WF S512x32 S32x512 S512x512 [1] [0] [0] [1] [] []
  dot_S512x512_S512x3_S512x3_1_0_0_1_n_n_wf : DotDims.WF S512x512 S512x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x320.size a ≤ S16x16384x320.size a
  hwx0_0 : ∀ i : grid0.Coords, EltTy.bits .f32 = 32 ∨ (Rect.block (s := S16x16384x320) S16x512x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S16384.size a
  hwx0_1 : ∀ i : grid0.Coords, EltTy.bits .i32 = 32 ∨ (Rect.block (s := S16384) S512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x32.size a ≤ S320x32.size a
  hwx0_2 : ∀ i : grid0.Coords, EltTy.bits .f32 = 32 ∨ (Rect.block (s := S320x32) S320x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S2x1024x512.size a
  hwx0_3 : ∀ i : grid0.Coords, EltTy.bits .f32 = 32 ∨ (Rect.block (s := S2x1024x512) S1x1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512.size a ≤ S16384.size a
  hwx1_0 : ∀ i : grid1.Coords, EltTy.bits .i32 = 32 ∨ (Rect.block (s := S16384) S512.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1024x512.size a ≤ S2x1024x512.size a
  hwx1_1 : ∀ i : grid1.Coords, EltTy.bits .f32 = 32 ∨ (Rect.block (s := S2x1024x512) S2x1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S1024x1.size a
  hwx1_2 : ∀ i : grid1.Coords, EltTy.bits .f32 = 32 ∨ (Rect.block (s := S1024x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x3.size a ≤ S16384x3.size a
  hwx1_3 : ∀ i : grid1.Coords, EltTy.bits .f32 = 32 ∨ (Rect.block (s := S16384x3) S512x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x512.size a ≤ S32x512.size a
  hwx1_4 : ∀ i : grid1.Coords, EltTy.bits .f32 = 32 ∨ (Rect.block (s := S32x512) S32x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x512.size a ≤ S3x512.size a
  hwx1_5 : ∀ i : grid1.Coords, EltTy.bits .f32 = 32 ∨ (Rect.block (s := S3x512) S3x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x512.size a
  hwx1_9 : ∀ i : grid1.Coords, EltTy.bits .f32 = 32 ∨ (Rect.block (s := S1x512) S1x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x512.size a
  hwx1_10 : ∀ i : grid1.Coords, EltTy.bits .f32 = 32 ∨ (Rect.block (s := S1x512) S1x512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S512x3.size a ≤ S512x3.size a
  hwx1_11 : ∀ i : grid1.Coords, EltTy.bits .f32 = 32 ∨ (Rect.block (s := S512x3) S512x3.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x3.size a ≤ S1x3.size a
  hwx1_12 : ∀ i : grid1.Coords, EltTy.bits .f32 = 32 ∨ (Rect.block (s := S1x3) S1x3.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S16x3x512.size a ≤ S16x3x16384.size a
  hwx1_13 : ∀ i : grid1.Coords, EltTy.bits .f32 = 32 ∨ (Rect.block (s := S16x3x16384) S16x3x512.size (cc1_transform_13 i) (hinb1_13 i)).WholeWords (EltTy.packing .f32)

variable [Facts₀]

def dot_S512x320_S320x32_S512x32_1_0_0_1_n_n : DotDims S512x320 S320x32 S512x32 where
  lhsContracting := [1]
  rhsContracting := [0]
  lhsNonContracting := [0]
  rhsNonContracting := [1]
  lhsBatch := []
  rhsBatch := []
  wf := dot_S512x320_S320x32_S512x32_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def scatter_S1024_S16384x1_S16384_n_0_0_1 : ScatterDims S1024 S16384x1 S16384 where
  updateWindowDims := []
  insertedWindowDims := [0]
  scatterDimsToOperandDims := [0]
  indexVectorDim := 1
  wf := scatter_S1024_S16384x1_S16384_n_0_0_1_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x3_S3x512_S512x512_1_0_0_1_n_n : DotDims S512x3 S3x512 S512x512 where
  lhsContracting := [1]
  rhsContracting := [0]
  lhsNonContracting := [0]
  rhsNonContracting := [1]
  lhsBatch := []
  rhsBatch := []
  wf := dot_S512x3_S3x512_S512x512_1_0_0_1_n_n_wf
def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf
def dot_S512x512_S512x3_S512x3_1_0_0_1_n_n : DotDims S512x512 S512x3 S512x3 where
  lhsContracting := [1]
  rhsContracting := [0]
  lhsNonContracting := [0]
  rhsNonContracting := [1]
  lhsBatch := []
  rhsBatch := []
  wf := dot_S512x512_S512x3_S512x3_1_0_0_1_n_n_wf

abbrev win0_0 : Pipeline.Window sig grid0 :=
  Pipeline.Window.ofSpec (Memref.whole main_v0) S16x512x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S320x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2x1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1024x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S32x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S3x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S1x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v28) S1x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg9) S512x3.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v29) S1x3.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v30) S16x3x512.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S262144x320 : Shape := ⟨2, ![262144, 320]⟩
abbrev S16384x3 : Shape := ⟨2, ![16384, 3]⟩
abbrev S16384 : Shape := ⟨1, ![16384]⟩
abbrev S35x512 : Shape := ⟨2, ![35, 512]⟩
abbrev S512 : Shape := ⟨1, ![512]⟩
abbrev S512x3 : Shape := ⟨2, ![512, 3]⟩
abbrev S3 : Shape := ⟨1, ![3]⟩
abbrev S16x16384x320 : Shape := ⟨3, ![16, 16384, 320]⟩
abbrev S_ : Shape := ⟨0, ![]⟩
abbrev S1024 : Shape := ⟨1, ![1024]⟩
abbrev S16384x1 : Shape := ⟨2, ![16384, 1]⟩
abbrev S1024x320 : Shape := ⟨2, ![1024, 320]⟩
abbrev S16x1024x320 : Shape := ⟨3, ![16, 1024, 320]⟩
abbrev S1x1024x1 : Shape := ⟨3, ![1, 1024, 1]⟩
abbrev S16x1024x32x10 : Shape := ⟨4, ![16, 1024, 32, 10]⟩
abbrev S16x1024x32 : Shape := ⟨3, ![16, 1024, 32]⟩
abbrev S16x16384x32 : Shape := ⟨3, ![16, 16384, 32]⟩
abbrev S1x16384x3 : Shape := ⟨3, ![1, 16384, 3]⟩
abbrev S16x16384x3 : Shape := ⟨3, ![16, 16384, 3]⟩
abbrev S16x16384x35 : Shape := ⟨3, ![16, 16384, 35]⟩
abbrev S262144x35 : Shape := ⟨2, ![262144, 35]⟩
abbrev S262144x512 : Shape := ⟨2, ![262144, 512]⟩
abbrev S1x512 : Shape := ⟨2, ![1, 512]⟩
abbrev S262144x3 : Shape := ⟨2, ![262144, 3]⟩
abbrev S1x3 : Shape := ⟨2, ![1, 3]⟩

abbrev nBuf : Space → Nat
  | .hbm => 75
  | .vmem => 0
  | .smem => 0
  | _ => 0

abbrev bufTy : (tb : Table) → Fin (tcTables nBuf tb) → BufTy
  | .hbm, ⟨0, _⟩ => ⟨S262144x320, .f32⟩
  | .hbm, ⟨1, _⟩ => ⟨S16384x3, .f32⟩
  | .hbm, ⟨2, _⟩ => ⟨S16384, .i32⟩
  | .hbm, ⟨3, _⟩ => ⟨S35x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x3, .f32⟩
  | .hbm, ⟨10, _⟩ => ⟨S3, .f32⟩
  | .hbm, ⟨11, _⟩ => ⟨S16x16384x320, .f32⟩
  | .hbm, ⟨12, _⟩ => ⟨S_, .f32⟩
  | .hbm, ⟨13, _⟩ => ⟨S16384, .f32⟩
  | .hbm, ⟨14, _⟩ => ⟨S_, .f32⟩
  | .hbm, ⟨15, _⟩ => ⟨S1024, .f32⟩
  | .hbm, ⟨16, _⟩ => ⟨S16384x1, .i32⟩
  | .hbm, ⟨17, _⟩ => ⟨S1024, .f32⟩
  | .hbm, ⟨18, _⟩ => ⟨S_, .f32⟩
  | .hbm, ⟨19, _⟩ => ⟨S1024x320, .f32⟩
  | .hbm, ⟨20, _⟩ => ⟨S16384x1, .i32⟩
  | .hbm, ⟨21, _⟩ => ⟨S16x1024x320, .f32⟩
  | .hbm, ⟨22, _⟩ => ⟨S16x1024x320, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024x1, .f32⟩
  | .hbm, ⟨27, _⟩ => ⟨S16x1024x320, .f32⟩
  | .hbm, ⟨28, _⟩ => ⟨S16x1024x320, .f32⟩
  | .hbm, ⟨29, _⟩ => ⟨S16x1024x32x10, .f32⟩
  | .hbm, ⟨30, _⟩ => ⟨S_, .f32⟩
  | .hbm, ⟨31, _⟩ => ⟨S16x1024x32, .f32⟩
  | .hbm, ⟨32, _⟩ => ⟨S_, .f32⟩
  | .hbm, ⟨33, _⟩ => ⟨S16x1024x32, .f32⟩
  | .hbm, ⟨34, _⟩ => ⟨S16x1024x32, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16x16384x32, .f32⟩
  | .hbm, ⟨44, _⟩ => ⟨S1x16384x3, .f32⟩
  | .hbm, ⟨45, _⟩ => ⟨S16x16384x3, .f32⟩
  | .hbm, ⟨46, _⟩ => ⟨S16x16384x35, .f32⟩
  | .hbm, ⟨47, _⟩ => ⟨S262144x35, .f32⟩
  | .hbm, ⟨48, _⟩ => ⟨S262144x512, .f32⟩
  | .hbm, ⟨49, _⟩ => ⟨S1x512, .f32⟩
  | .hbm, ⟨50, _⟩ => ⟨S262144x512, .f32⟩
  | .hbm, ⟨51, _⟩ => ⟨S262144x512, .f32⟩
  | .hbm, ⟨52, _⟩ => ⟨S_, .f32⟩
  | .hbm, ⟨53, _⟩ => ⟨S262144x512, .f32⟩
  | .hbm, ⟨54, _⟩ => ⟨S262144x512, .f32⟩
  | .hbm, ⟨55, _⟩ => ⟨S1x512, .f32⟩
  | .hbm, ⟨56, _⟩ => ⟨S262144x512, .f32⟩
  | .hbm, ⟨57, _⟩ => ⟨S262144x512, .f32⟩
  | .hbm, ⟨58, _⟩ => ⟨S_, .f32⟩
  | .hbm, ⟨59, _⟩ => ⟨S512, .f32⟩
  | .hbm, ⟨60, _⟩ => ⟨S512, .f32⟩
  | .hbm, ⟨61, _⟩ => ⟨S512, .f32⟩
  | .hbm, ⟨62, _⟩ => ⟨S1x512, .f32⟩
  | .hbm, ⟨63, _⟩ => ⟨S262144x512, .f32⟩
  | .hbm, ⟨64, _⟩ => ⟨S262144x512, .f32⟩
  | .hbm, ⟨65, _⟩ => ⟨S1x512, .f32⟩
  | .hbm, ⟨66, _⟩ => ⟨S262144x512, .f32⟩
  | .hbm, ⟨67, _⟩ => ⟨S262144x512, .f32⟩
  | .hbm, ⟨68, _⟩ => ⟨S1x512, .f32⟩
  | .hbm, ⟨69, _⟩ => ⟨S262144x512, .f32⟩
  | .hbm, ⟨70, _⟩ => ⟨S262144x512, .f32⟩
  | .hbm, ⟨71, _⟩ => ⟨S262144x3, .f32⟩
  | .hbm, ⟨72, _⟩ => ⟨S1x3, .f32⟩
  | .hbm, ⟨73, _⟩ => ⟨S262144x3, .f32⟩
  | .hbm, ⟨74, _⟩ => ⟨S262144x3, .f32⟩
  | _, _ => ⟨S262144x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  shapeCasts_S262144x320_S16x16384x320 : S262144x320.ShapeCasts S16x16384x320
  bcast_S_S16384 : S_.BroadcastsInDim S16384 (![] : Fin 0 → Fin S16384.rank)
  bcast_S_S1024 : S_.BroadcastsInDim S1024 (![] : Fin 0 → Fin S1024.rank)
  bcast_S16384_S16384x1_0 : S16384.BroadcastsInDim S16384x1 (![0] : Fin 1 → Fin S16384x1.rank)
  bcast_S_S1024x320 : S_.BroadcastsInDim S1024x320 (![] : Fin 0 → Fin S1024x320.rank)
  bcast_S1024x320_S16x1024x320_1_2 : S1024x320.BroadcastsInDim S16x1024x320 (![1, 2] : Fin 2 → Fin S16x1024x320.rank)
  bcast_S1024_S1x1024x1_1 : S1024.BroadcastsInDim S1x1024x1 (![1] : Fin 1 → Fin S1x1024x1.rank)
  bcast_S1x1024x1_S16x1024x320_0_1_2 : S1x1024x1.BroadcastsInDim S16x1024x320 (![0, 1, 2] : Fin 3 → Fin S16x1024x320.rank)
  shapeCasts_S16x1024x320_S16x1024x32x10 : S16x1024x320.ShapeCasts S16x1024x32x10
  reducesTo_S16x1024x32x10_S16x1024x32_d3 : S16x1024x32x10.ReducesTo [3] S16x1024x32
  h_S_ : 0 < S_.numel
  bcast_S_S16x1024x32 : S_.BroadcastsInDim S16x1024x32 (![] : Fin 0 → Fin S16x1024x32.rank)
  bcast_S16384x3_S1x16384x3_1_2 : S16384x3.BroadcastsInDim S1x16384x3 (![1, 2] : Fin 2 → Fin S1x16384x3.rank)
  bcast_S1x16384x3_S16x16384x3_0_1_2 : S1x16384x3.BroadcastsInDim S16x16384x3 (![0, 1, 2] : Fin 3 → Fin S16x16384x3.rank)
  concatenates_S16x16384x32_S16x16384x3_S16x16384x35_d2 : Shape.Concatenates [S16x16384x32, S16x16384x3] S16x16384x35 2
  shapeCasts_S16x16384x35_S262144x35 : S16x16384x35.ShapeCasts S262144x35
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S_S512 : S_.BroadcastsInDim S512 (![] : Fin 0 → Fin S512.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  scatter_S1024_S16384x1_S16384_n_0_0_1_wf : ScatterDims.WF S1024 S16384x1 S16384 [] [0] [0] 1
  scatter_S16x1024x320_S16384x1_S16x16384x320_02_1_1_1_wf : ScatterDims.WF S16x1024x320 S16384x1 S16x16384x320 [0, 2] [1] [1] 1
  gather_S16x1024x32_S16384x1_S16x16384x32_02_1_n_n_1_1_16132_wf : GatherDims.WF S16x1024x32 S16384x1 S16x16384x32 [0, 2] [1] [] [1] [] 1 ![16, 1, 32]
  dot_S262144x35_S35x512_S262144x512_1_0_0_1_n_n_wf : DotDims.WF S262144x35 S35x512 S262144x512 [1] [0] [0] [1] [] []
  dot_S262144x512_S512x3_S262144x3_1_0_0_1_n_n_wf : DotDims.WF S262144x512 S512x3 S262144x3 [1] [0] [0] [1] [] []

variable [Facts₀]

def scatter_S1024_S16384x1_S16384_n_0_0_1 : ScatterDims S1024 S16384x1 S16384 where
  updateWindowDims := []
  insertedWindowDims := [0]
  scatterDimsToOperandDims := [0]
  indexVectorDim := 1
  wf := scatter_S1024_S16384x1_S16384_n_0_0_1_wf
def scatter_S16x1024x320_S16384x1_S16x16384x320_02_1_1_1 : ScatterDims S16x1024x320 S16384x1 S16x16384x320 where
  updateWindowDims := [0, 2]
  insertedWindowDims := [1]
  scatterDimsToOperandDims := [1]
  indexVectorDim := 1
  wf := scatter_S16x1024x320_S16384x1_S16x16384x320_02_1_1_1_wf
def gather_S16x1024x32_S16384x1_S16x16384x32_02_1_n_n_1_1_16132 : GatherDims S16x1024x32 S16384x1 S16x16384x32 where
  offsetDims := [0, 2]
  collapsedSliceDims := [1]
  operandBatchingDims := []
  startIndicesBatchingDims := []
  startIndexMap := [1]
  indexVectorDim := 1
  sliceSizes := ![16, 1, 32]
  wf := gather_S16x1024x32_S16384x1_S16x16384x32_02_1_n_n_1_1_16132_wf
def dot_S262144x35_S35x512_S262144x512_1_0_0_1_n_n : DotDims S262144x35 S35x512 S262144x512 where
  lhsContracting := [1]
  rhsContracting := [0]
  lhsNonContracting := [0]
  rhsNonContracting := [1]
  lhsBatch := []
  rhsBatch := []
  wf := dot_S262144x35_S35x512_S262144x512_1_0_0_1_n_n_wf
def dot_S262144x512_S512x3_S262144x3_1_0_0_1_n_n : DotDims S262144x512 S512x3 S262144x3 where
  lhsContracting := [1]
  rhsContracting := [0]
  lhsNonContracting := [0]
  rhsNonContracting := [1]
  lhsBatch := []
  rhsBatch := []
  wf := dot_S262144x512_S512x3_S262144x3_1_0_0_1_n_n_wf

class Facts : Prop extends Facts₀ where

variable [Facts]
-- ==== Proof.BitsSegs.lean ====
import proofs.«402796_j36103495090325_3_alg».proof.Proof.Gen.Kernel.Regions
import Idealize.ShloMosaic.Lib.Pipeline.RegionsLoop

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RegionSeg BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (outs : Outs (F := F))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev E4 (c : Dev nD) : (b : Ref sig .tc) → Buf (Elt F) ((c : Thread nD τ).loc b) := fun b => V4 m c b
abbrev E6 (c : Dev nD) : (b : Ref sig .tc) → Buf (Elt F) ((c : Thread nD τ).loc b) := fun b => V6 m outs c b

variable (pdats : (p : Fin 2) → (c : Dev nD) → Dat τ (Elt F) Unit ℕ (UR sig nD τ) ℕ (cfgs p) c)
  (p : Fin 2) (la : Pipeline.LaunchFacts (nD := nD) (τ := τ) cfgs p) (o : Fin (cfgs p).W)
  (V V' : Dev nD → Valuation τ sig (Elt F))
  (hb : ∀ c, BodyObligation (pdats p c) (defs₀ (F := F)) Variants.none () Set.univ)
  (hA : ∀ c w, (pdats p c).A w = V c (Pipeline.arrRef (cfgs p).spec w))
  (hq : ∀ c w, (pdats p c).q w = fullShare)
  (h0 : ∀ c t, (pdats p c).owed t = 0)
  (hr : ∀ c t, (pdats p c).recorded t = Set.univ)
  (hΦ : ∀ c, Pipeline.ΦA (cfgs p).spec c ⊢ (pdats p c).Φ 0)
  (hΦ' : ∀ c, (pdats p c).Φ (Fin.last (cfgs p).N) ⊢ Pipeline.ΦA (cfgs p).spec c)
  (hi : ∀ w, w ≠ o → ((cfgs p).win w).isOut = false)
  (hO : ∀ c, (pdats p c).arrAt o (cfgs p).N = V' c (Pipeline.arrRef (cfgs p).spec o))
  (hV : ∀ c (b : Ref sig .tc), b ≠ Pipeline.arrRef (cfgs p).spec o → V' c b = V c b)

set_option backward.isDefEq.respectTransparency.types false in
/-- Region `p` as a segment: its arrays are split out of the buffers at `V` on entry and put back at `V'`, which differs from `V` only at output window `o`'s array. -/
def reg : RegionSeg (pcfgs (F := F)) adm pdats () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (fun b => V c b)
  hentry c := by
    have hs := Pipeline.arrays_of_unscopedBufs (p := p) (pcfgs (F := F)) adm pdats la.win la.arr_whole c
      ((pdats p c).share_full (hq c)) (fun b => V c b) (hA c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hr c]; exact Set.mem_univ _)
      rw [h0 c]; iexact HO
    isplitl [Hp] <;> iassumption
  hin c := by
    refine BIBase.Entails.trans ?_ (hΦ c)
    unfold Pipeline.ΦA
    iintro ⟨Hp, -, Hr⟩
    isplitl [Hr] <;> iassumption
  hout c := by
    rw [Pipeline.ownSems0_none]
    refine (hΦ' c).trans ?_
    unfold Pipeline.ΦA
    iintro ⟨Hr, Hp⟩
    isplitl [Hp]; · iexact Hp
    isplitr; · iempintro
    iexact Hr
  hexit c := by
    have hj := Pipeline.unscopedBufs_of_arrays (p := p) (pcfgs (F := F)) adm la.win la.arr_whole c pdats ((pdats p c).share_full (hq c)) (fun b => V c b) (fun b => V' c b) ((pdats p c).arrAt · (cfgs p).N)
      (fun w => by
        rcases eq_or_ne w o with rfl | h
        · exact hO c
        · exact (((pdats p c).arrAt_in w (hi w h) _).trans (hA c w)).trans (hV c _ fun e => h (la.win.arr_inj e)).symm)
      (fun b hb => hV c b fun e => hb (Finset.mem_image.mpr ⟨o, Finset.mem_univ _, e.symm⟩))
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; rw [h0 c]; iexact HO

end Cert.Kernel.Run

end
-- ==== Proof.BitsR0Runs.lean ====
import proofs.«402796_j36103495090325_3_alg».proof.Proof.Gen.Kernel.Launch
import proofs.«402796_j36103495090325_3_alg».proof.Proof.Gen.Kernel.Skeleton
import proofs.«402796_j36103495090325_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.R0

open Gen Idealize.ShloMosaic TcCoe Tactic Idealize.SL RA BI BIBase ProofMode Sem Pipeline
open scoped Idealize.SL.BI

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 := by decide +kernel

abbrev cond0_1 (i : grid0.Coords) : Prop := k0_cond2 i = 1#1
theorem hcond0_1 : ∀ t : Fin cfg0.N, cond0_1 (grid0.coords t) ↔ t.val % 16 = 15 := by decide +kernel

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev VO0_3 : View sig .tc .vmem S1x1024x512 .f32 := (Memref.whole cc0_stg3_0 : Memref sig .tc .vmem S1x1024x512 .f32).view
abbrev ms0_0 (t : Fin cfg0.N) : Memref sig .tc .vmem S16x512x320 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S320x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .f32 := win0_3.stage (cfg0.slots t 3)
abbrev hs0_3 (t : Fin cfg0.N) : (ms0_3 t).IsWhole := hstage0_3 ((cfg0.slots t 3).cast nbuf0_3)
abbrev scM0_0 : Memref sig .tc .vmem S1024x512 .f32 := Memref.whole cc0_scratch0
abbrev VS0_0 : View sig .tc .vmem S1024x512 .f32 := scM0_0.view

/-- The other buffers the region holds, each at some contents. -/
def rest0 (c : Dev nD) : sProp 𝕄 :=
  bigSepL [cc1_stg0_0, cc1_stg0_1, cc1_stg1_0, cc1_stg2_0, cc1_stg3_0, cc1_stg3_1, cc1_stg4_0, cc1_stg5_0, cc1_stg6_0, cc1_stg7_0, cc1_stg8_0, cc1_stg9_0, cc1_stg10_0, cc1_stg11_0, cc1_stg12_0, cc1_stg13_0, cc1_stg13_1] fun b => iprop(∃ f : Buf (Elt F) ((c : Thread nD τ).loc b), ((c : Thread nD τ).loc b) ↦{fullShare} f)

theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

section Entry
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Entry

section Runs
variable (c : Dev nD) (i : grid0.Coords) (arg2 : Memref sig .tc .vmem S16x512x320 .f32) (harg2 : arg2.IsWhole) (arg3 : Memref sig .tc .vmem S512 .i32) (harg3 : arg3.IsWhole) (arg4 : Memref sig .tc .vmem S320x32 .f32) (harg4 : arg4.IsWhole) (arg5 : Memref sig .tc .vmem S1x1024x512 .f32) (harg5 : arg5.IsWhole) (arg6 : Memref sig .tc .vmem S1024x512 .f32) (harg6 : arg6.IsWhole)

/-- The body's triple: from the inputs, `P5` and `P6` to the inputs as found, `Q5` and the accumulator with the pieces `LS0` written. -/
abbrev Run0 (x0 : Vec F S16x512x320 .f32) (x1 : Vec F S512 .i32) (x2 : Vec F S320x32 .f32) (P5 P6 Q5 : sProp 𝕄) (LS0 : List (View.Piece (Elt F) S1024x512 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc0__sums_kernel i arg2 harg2 arg3 harg3 arg4 harg4 arg5 harg5 arg6 harg6) K

def kernelRun0_A (hc0 : cond0_0 i) (hc1 : ¬cond0_1 i) (x0 : Vec F S16x512x320 .f32) (x1 : Vec F S512 .i32) (x2 : Vec F S320x32 .f32) :
    Σ' (L3 : List (View.Piece (Elt F) S1x1024x512 .f32)), { LS0 : List (View.Piece (Elt F) S1024x512 .f32) //
      ∀ xi3 : Vec F S1x1024x512 .f32, Run0 c i arg2 harg2 arg3 harg3 arg4 harg4 arg5 harg5 arg6 harg6 x0 x1 x2 (owns (c : Thread nD τ) arg5 fullShare xi3) iprop(∃ d, owns (c : Thread nD τ) arg6 fullShare d) (owns (c : Thread nD τ) arg5 fullShare xi3) LS0 } := by
  refine ⟨[], ?_, fun xi3 E K => ?run⟩
  case run =>
    simp only [cc0__sums_kernel_eq_skeleton]; unfold cc0__sums_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def kernelRun0_B (hc0 : ¬cond0_0 i) (hc1 : ¬cond0_1 i) (x0 : Vec F S16x512x320 .f32) (x1 : Vec F S512 .i32) (x2 : Vec F S320x32 .f32) (xs0 : Vec F S1024x512 .f32) :
    Σ' (L3 : List (View.Piece (Elt F) S1x1024x512 .f32)), { LS0 : List (View.Piece (Elt F) S1024x512 .f32) //
      ∀ xi3 : Vec F S1x1024x512 .f32, Run0 c i arg2 harg2 arg3 harg3 arg4 harg4 arg5 harg5 arg6 harg6 x0 x1 x2 (owns (c : Thread nD τ) arg5 fullShare xi3) (owns (c : Thread nD τ) arg6 fullShare xs0) (owns (c : Thread nD τ) arg5 fullShare xi3) LS0 } := by
  refine ⟨[], ?_, fun xi3 E K => ?run⟩
  case run =>
    simp only [cc0__sums_kernel_eq_skeleton]; unfold cc0__sums_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def kernelRun0_C (hc0 : ¬cond0_0 i) (hc1 : cond0_1 i) (x0 : Vec F S16x512x320 .f32) (x1 : Vec F S512 .i32) (x2 : Vec F S320x32 .f32) (xs0 : Vec F S1024x512 .f32) :
    Σ' (L3 : List (View.Piece (Elt F) S1x1024x512 .f32)), { LS0 : List (View.Piece (Elt F) S1024x512 .f32) //
      Run0 c i arg2 harg2 arg3 harg3 arg4 harg4 arg5 harg5 arg6 harg6 x0 x1 x2 iprop(∃ d, owns (c : Thread nD τ) arg5 fullShare d) (owns (c : Thread nD τ) arg6 fullShare xs0) iprop(∃ f, arg5.view.loc (c : Thread nD τ) ↦[arg5.view.set]{fullShare} arg5.view.writes (Elt F) f L3) LS0 } := by
  refine ⟨?_, ?_, fun E K => ?run⟩
  case run =>
    simp only [cc0__sums_kernel_eq_skeleton]; unfold cc0__sums_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Runs

end Cert.Kernel.R0

end
-- ==== Proof.BitsR0Dat.lean ====
import proofs.«402796_j36103495090325_3_alg».proof.Proof.BitsR0Runs

noncomputable section

namespace Cert.Kernel.R0

open Gen Idealize.ShloMosaic TcCoe Tactic Idealize.SL RA BI BIBase ProofMode Sem Pipeline
open scoped Idealize.SL.BI

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b)) (c : Dev nD)

/-- The three cases' runs at point `t`: its coordinates, buffers and input blocks. -/
abbrev run0_A (t : Fin cfg0.N) (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (mt (hcond0_1 t).mp h1) (iblk0 V c 0 t) (iblk0 V c 1 t) (iblk0 V c 2 t)
abbrev run0_B (t : Fin cfg0.N) (h0 : ¬t.val % 16 = 0) (h1 : ¬t.val % 16 = 15) (xs0 : Vec F S1024x512 .f32) :=
  kernelRun0_B c (grid0.coords t) (ms0_0 t) (hs0_0 t) (ms0_1 t) (hs0_1 t) (ms0_2 t) (hs0_2 t) (ms0_3 t) (hs0_3 t) scM0_0 (Memref.isWhole_whole _) (mt (hcond0_0 t).mp h0) (mt (hcond0_1 t).mp h1) (iblk0 V c 0 t) (iblk0 V c 1 t) (iblk0 V c 2 t) xs0
abbrev run0_C (t : Fin cfg0.N) (h0 : ¬t.val % 16 = 0) (h1 : t.val % 16 = 15) (xs0 : Vec F S1024x512 .f32) :=
  kernelRun0_C c (grid0.coords t) (ms0_0 t) (hs0_0 t) (ms0_1 t) (hs0_1 t) (ms0_2 t) (hs0_2 t) (ms0_3 t) (hs0_3 t) scM0_0 (Memref.isWhole_whole _) (mt (hcond0_0 t).mp h0) ((hcond0_1 t).mpr h1) (iblk0 V c 0 t) (iblk0 V c 1 t) (iblk0 V c 2 t) xs0

/-- What each case leaves in the accumulator at point `t`, and the last case in the output block: the run's pieces read back. -/
def sout0_A (t : Fin cfg0.N) (h0 : t.val % 16 = 0) (h1 : ¬t.val % 16 = 15) : Vec F S1024x512 .f32 :=
  VS0_0.read (Elt F) (VS0_0.writes (Elt F) VS0_0.junk (run0_A V c t h0 h1).2.1)
def sout0_B (t : Fin cfg0.N) (h0 : ¬t.val % 16 = 0) (h1 : ¬t.val % 16 = 15) (xs0 : Vec F S1024x512 .f32) : Vec F S1024x512 .f32 :=
  VS0_0.read (Elt F) (VS0_0.writes (Elt F) VS0_0.junk (run0_B V c t h0 h1 xs0).2.1)
def sout0_C (t : Fin cfg0.N) (h0 : ¬t.val % 16 = 0) (h1 : t.val % 16 = 15) (xs0 : Vec F S1024x512 .f32) : Vec F S1024x512 .f32 :=
  VS0_0.read (Elt F) (VS0_0.writes (Elt F) VS0_0.junk (run0_C V c t h0 h1 xs0).2.1)
def out0_C (t : Fin cfg0.N) (h0 : ¬t.val % 16 = 0) (h1 : t.val % 16 = 15) (xs0 : Vec F S1024x512 .f32) : Vec F S1x1024x512 .f32 :=
  VO0_3.read (Elt F) (VO0_3.writes (Elt F) VO0_3.junk (run0_C V c t h0 h1 xs0).1)

/-- The output block and the accumulator after point `n`: a first point of a half starts from anything, every other point from what the point before left; the output block is named only where it is stored. -/
def outsAt0 : (n : ℕ) → n < cfg0.N → Vec F S1x1024x512 .f32 × Vec F S1024x512 .f32
  | 0, hn => (VO0_3.read (Elt F) VO0_3.junk, sout0_A V c ⟨0, hn⟩ (Nat.zero_mod _) (fun h => by (try dsimp only at h); omega))
  | n + 1, hn =>
    if h0 : (n + 1) % 16 = 0 then (VO0_3.read (Elt F) VO0_3.junk, sout0_A V c ⟨n + 1, hn⟩ h0 (fun h => by (try dsimp only at h); omega))
    else if h1 : (n + 1) % 16 = 15 then
      (out0_C V c ⟨n + 1, hn⟩ h0 h1 (outsAt0 n (Nat.lt_of_succ_lt hn)).2, sout0_C V c ⟨n + 1, hn⟩ h0 h1 (outsAt0 n (Nat.lt_of_succ_lt hn)).2)
    else (VO0_3.read (Elt F) VO0_3.junk, sout0_B V c ⟨n + 1, hn⟩ h0 h1 (outsAt0 n (Nat.lt_of_succ_lt hn)).2)

/-- The accumulator as point `t` finds it. -/
abbrev prev0 (t : Fin cfg0.N) : Vec F S1024x512 .f32 := (outsAt0 V c (t.val - 1) (Nat.lt_of_le_of_lt (Nat.sub_le _ _) t.isLt)).2

theorem outsAt0_A (t : Fin cfg0.N) (h0 : t.val % 16 = 0) (h1 : ¬t.val % 16 = 15) :
    outsAt0 V c t.val t.isLt = (VO0_3.read (Elt F) VO0_3.junk, sout0_A V c t h0 h1) := by
  obtain ⟨_ | n, hn⟩ := t
  · rfl
  · exact dif_pos h0

theorem outsAt0_B (t : Fin cfg0.N) (h0 : ¬t.val % 16 = 0) (h1 : ¬t.val % 16 = 15) :
    outsAt0 V c t.val t.isLt = (VO0_3.read (Elt F) VO0_3.junk, sout0_B V c t h0 h1 (prev0 V c t)) := by
  obtain ⟨_ | n, hn⟩ := t
  · exact absurd (Nat.zero_mod _) h0
  · exact (dif_neg h0).trans (dif_neg h1)

theorem outsAt0_C (t : Fin cfg0.N) (h0 : ¬t.val % 16 = 0) (h1 : t.val % 16 = 15) :
    outsAt0 V c t.val t.isLt = (out0_C V c t h0 h1 (prev0 V c t), sout0_C V c t h0 h1 (prev0 V c t)) := by
  obtain ⟨_ | n, hn⟩ := t
  · exact absurd (Nat.zero_mod _) h0
  · exact (dif_neg h0).trans (dif_pos h1)

/-- The region invariant before position `n`: the accumulator at what the point before left, at anything before the first. -/
def PhiS0 : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_pos (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-- At every position the invariant gives the accumulator at some contents. -/
theorem PhiS0_any (n : ℕ) (h : n ≤ cfg0.N) :
    PhiS0 V c n h ⊢ iprop(iprop((∃ d, owns (c : Thread nD τ) scM0_0 fullShare d) ∗ rest0 c) ∗ (∃ r, prngReg c r)) := by
  cases n with
  | zero => exact Entails.of_eq (PhiA0_eq c)
  | succ n =>
    rw [PhiS0]
    iintro ⟨⟨H, Hr⟩, Hg⟩
    iframe Hr Hg
    iexists _; iexact H

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl

theorem after0_3 (t : Fin cfg0.N) : (dat0 V c).after 3 t = (outsAt0 V c t.val t.isLt).1 := rfl

/-- The body at any point: the case's run applies, the invariant lends it the accumulator and takes it back at the pieces read back. -/
theorem sound_body0 (t : Fin cfg0.N) :
    iprop(PhiS0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ =>
      iprop(iprop(iprop(owns (c : Thread nD τ) scM0_0 fullShare ((outsAt0 V c t.val t.isLt).2) ∗ rest0 c) ∗ (∃ r, prngReg c r))
        ∗ (dat0 V c).owesAt () t.castSucc
        ∗ owns (c : Thread nD τ) (ms0_0 t) fullShare (iblk0 V c 0 t)
        ∗ owns (c : Thread nD τ) (ms0_1 t) fullShare (iblk0 V c 1 t)
        ∗ owns (c : Thread nD τ) (ms0_2 t) fullShare (iblk0 V c 2 t)
        ∗ (dat0 V c).leavesExact 3 t)) := by
  unfold bodyAt0
  simp only [before0_0_of V (dat0 V c) rfl fun _ => rfl, before0_1_of V (dat0 V c) rfl fun _ => rfl, before0_2_of V (dat0 V c) rfl fun _ => rfl]
  by_cases h1 : t.val % 16 = 15
  · have h0 : ¬t.val % 16 = 0 := by omega
    rw [PhiS0_pos V c _ _ (by omega), show (dat0 V c).leavesExact 3 t = owns (c : Thread nD τ) (ms0_3 t) fullShare ((dat0 V c).after 3 t) from by
      unfold Dat.leavesExact; rw [liveAt0_3 t ((hcond0_1 t).mpr h1)], after0_3, outsAt0_C V c t h0 h1]
    unfold out0_C sout0_C; dsimp only
    iintro ⟨⟨⟨HS0, Hr⟩, Hg⟩, Ho, ⟨%d0, H0⟩, ⟨%d1, H1⟩, ⟨%d2, H2⟩, ⟨%d3, H3⟩⟩
    iapply ((run0_C V c t h0 h1 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%f3, H3⟩, ⟨%f, HS0⟩⟩
    iframe Hr Hg Ho H0 H1 H2
    isplitl [HS0]
    · ihave H := (Ring.owns_of_writes_tiledL VS0_0 S1024x512.size) $$ HS0
      iapply H; ipureintro; sl_kernel_rfl
    ihave H := (Ring.owns_of_writes_tiledL VO0_3 S1x1024x512.size) $$ H3
    iapply H; ipureintro; sl_kernel_rfl
  have hc1 := mt (hcond0_1 t).mp h1
  rw [Dat.leavesExact_idle (dat0 V c) 3 t (idleAt0_3 t hc1) (noFlush0_3 t hc1)]
  by_cases h0 : t.val % 16 = 0
  case' pos =>
    rw [outsAt0_A V c t h0 h1]
    unfold sout0_A; dsimp only
    iintro ⟨HΦ, Ho, ⟨%d0, H0⟩, ⟨%d1, H1⟩, ⟨%d2, H2⟩, ⟨%d3, H3⟩⟩
    ihave H := (PhiS0_any V c _ _) $$ HΦ
    icases H with ⟨⟨HS0, Hr⟩, Hg⟩
    iapply ((run0_A V c t h0 h1).2.2 _ Set.univ _)
  case' neg =>
    rw [PhiS0_pos V c _ _ (by omega), outsAt0_B V c t h0 h1]
    unfold sout0_B; dsimp only
    iintro ⟨⟨⟨HS0, Hr⟩, Hg⟩, Ho, ⟨%d0, H0⟩, ⟨%d1, H1⟩, ⟨%d2, H2⟩, ⟨%d3, H3⟩⟩
    iapply ((run0_B V c t h0 h1 _).2.2 _ Set.univ _)
  all_goals
    isplitl [H0]; · iexact H0
    isplitl [H1]; · iexact H1
    isplitl [H2]; · iexact H2
    isplitl [H3]; · iexact H3
    isplitl [HS0]; · iexact HS0
    iintro ⟨H0, H1, H2, H3, ⟨%f, HS0⟩⟩
    iframe Hr Hg Ho H0 H1 H2
    isplitl [HS0]
    · ihave H := (Ring.owns_of_writes_tiledL VS0_0 S1024x512.size) $$ HS0
      iapply H; ipureintro; sl_kernel_rfl
    iexists _; iexact H3

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c :=
  (PhiS0_any V c cfg0.N le_rfl).trans (Entails.of_eq (PhiA0_eq c).symm)

end Entry

end Cert.Kernel.R0

end
-- ==== Proof.BitsR1Run.lean ====
import proofs.«402796_j36103495090325_3_alg».proof.Proof.Gen.Kernel.Launch
import proofs.«402796_j36103495090325_3_alg».proof.Proof.Gen.Kernel.Skeleton
import proofs.«402796_j36103495090325_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev rin1_0 : Rect S512 := Rect.unit (s := S512) ![0] S512.size inb_S512_S512_0
abbrev rin1_1 : Rect S2x1024x512 := Rect.unit (s := S2x1024x512) ![0, 0, 0] S2x1024x512.size inb_S2x1024x512_S2x1024x512_0_0_0
abbrev rin1_2 : Rect S1024x1 := Rect.unit (s := S1024x1) ![0, 0] S1024x1.size inb_S1024x1_S1024x1_0_0
abbrev rin1_3 : Rect S512x3 := Rect.unit (s := S512x3) ![0, 0] S512x3.size inb_S512x3_S512x3_0_0
abbrev rin1_4 : Rect S32x512 := Rect.unit (s := S32x512) ![0, 0] S32x512.size inb_S32x512_S32x512_0_0
abbrev rin1_5 : Rect S3x512 := Rect.unit (s := S3x512) ![0, 0] S3x512.size inb_S3x512_S3x512_0_0
abbrev rin1_6 : Rect S1x512 := Rect.unit (s := S1x512) ![0, 0] S1x512.size inb_S1x512_S1x512_0_0
abbrev rin1_7 : Rect S1x512 := Rect.unit (s := S1x512) ![0, 0] S1x512.size inb_S1x512_S1x512_0_0
abbrev rin1_8 : Rect S1x512 := Rect.unit (s := S1x512) ![0, 0] S1x512.size inb_S1x512_S1x512_0_0
abbrev rin1_9 : Rect S1x512 := Rect.unit (s := S1x512) ![0, 0] S1x512.size inb_S1x512_S1x512_0_0
abbrev rin1_10 : Rect S1x512 := Rect.unit (s := S1x512) ![0, 0] S1x512.size inb_S1x512_S1x512_0_0
abbrev rin1_11 : Rect S512x3 := Rect.unit (s := S512x3) ![0, 0] S512x3.size inb_S512x3_S512x3_0_0
abbrev rin1_12 : Rect S1x3 := Rect.unit (s := S1x3) ![0, 0] S1x3.size inb_S1x3_S1x3_0_0

-- row b of the output block: the rectangle [1,3,512] at offset [b,0,0]
abbrev r1 (b : Fin 16) : Rect S16x3x512 :=
  Rect.unit (s := S16x3x512) ![b.val, 0, 0] S1x3x512.size fun a => by
    have := b.isLt
    match a with
    | ⟨0, _⟩ => show b.val + 1 ≤ 16; omega
    | ⟨1, _⟩ => show 0 + 3 ≤ 3; omega
    | ⟨2, _⟩ => show 0 + 512 ≤ 512; omega
-- the rows in the order the pieces are listed: last store first
abbrev rows1 : List (Fin 16) := [15, 14, 13, 12, 11, 10, 9, 8, 7, 6, 5, 4, 3, 2, 1, 0]

variable (c : Dev nD) (E : Set ℕ) (i : grid1.Coords) (arg1 : Memref sig .tc .vmem S512 .i32) (harg1 : arg1.IsWhole) (arg2 : Memref sig .tc .vmem S2x1024x512 .f32) (harg2 : arg2.IsWhole) (arg3 : Memref sig .tc .vmem S1024x1 .f32) (harg3 : arg3.IsWhole) (arg4 : Memref sig .tc .vmem S512x3 .f32) (harg4 : arg4.IsWhole) (arg5 : Memref sig .tc .vmem S32x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x3 .f32) (harg12 : arg12.IsWhole) (arg13 : Memref sig .tc .vmem S1x3 .f32) (harg13 : arg13.IsWhole) (arg14 : Memref sig .tc .vmem S16x3x512 .f32) (harg14 : arg14.IsWhole)
  (x0 : Vec F S512 .i32) (x1 : Vec F S2x1024x512 .f32) (x2 : Vec F S1024x1 .f32) (x3 : Vec F S512x3 .f32) (x4 : Vec F S32x512 .f32) (x5 : Vec F S3x512 .f32) (x6 : Vec F S1x512 .f32) (x7 : Vec F S1x512 .f32) (x8 : Vec F S1x512 .f32) (x9 : Vec F S1x512 .f32) (x10 : Vec F S1x512 .f32) (x11 : Vec F S512x3 .f32) (x12 : Vec F S1x3 .f32)

-- the values the body computes, as functions of the input windows' blocks
def v24 := k1_pay3 (View.ld x0 rin1_0) (View.ld x1 rin1_1) (View.ld x2 rin1_2)
def v28 := k1_pay4 (View.ld x4 rin1_4)
def v31 := k1_pay5 (View.ld x5 rin1_5)
def v33 := k1_pay6 (View.ld x11 rin1_11)
def v36 := k1_pay7 (View.ld x6 rin1_6)
def v39 := k1_pay8 (View.ld x7 rin1_7)
def v42 := k1_pay9 (View.ld x8 rin1_8)
def v45 := k1_pay10 (View.ld x9 rin1_9)
def v51 := k1_pay11 (View.ld x12 rin1_12)
def v54 := k1_pay12 (View.ld x10 rin1_10)
def v59 := k1_pay13 (View.ld x3 rin1_3) (v31 x5) (v36 x6)
-- the payload of the store at row b of the output block
def sv (b : Fin 16) : FVec F S1x3x512 .f32 :=
  match b with
  | ⟨0, _⟩ => k1_pay15 (k1_pay14 (v24 x0 x1 x2) (View.ld x3 rin1_3) (v28 x4) (v31 x5) (v33 x11) (v36 x6) (View.ld x7 rin1_7) (View.ld x8 rin1_8) (View.ld x9 rin1_9) (View.ld x10 rin1_10) (View.ld x12 rin1_12))
  | ⟨1, _⟩ => k1_pay16 (v24 x0 x1 x2) (v28 x4) (v33 x11) (v39 x7) (v42 x8) (v45 x9) (v51 x12) (v54 x10) (v59 x3 x5 x6)
  | ⟨2, _⟩ => k1_pay18 (v33 x11) (v51 x12) (k1_pay17 (v24 x0 x1 x2) (v28 x4) (v39 x7) (v42 x8) (v45 x9) (v54 x10) (v59 x3 x5 x6))
  | ⟨3, _⟩ => k1_pay19 (v24 x0 x1 x2) (v28 x4) (v33 x11) (v39 x7) (v42 x8) (v45 x9) (v51 x12) (v54 x10) (v59 x3 x5 x6)
  | ⟨4, _⟩ => k1_pay22 (v33 x11) (v39 x7) (v42 x8) (v51 x12) (k1_pay20 (v24 x0 x1 x2) (v28 x4) (v45 x9) (v59 x3 x5 x6)) (k1_pay21 (v54 x10))
  | ⟨5, _⟩ => k1_pay23 (v24 x0 x1 x2) (v28 x4) (v33 x11) (v39 x7) (v42 x8) (v45 x9) (v51 x12) (v54 x10) (v59 x3 x5 x6)
  | ⟨6, _⟩ => k1_pay25 (v33 x11) (v39 x7) (v42 x8) (v45 x9) (v51 x12) (v54 x10) (v59 x3 x5 x6) (k1_pay24 (v24 x0 x1 x2) (v28 x4))
  | ⟨7, _⟩ => k1_pay27 (k1_pay26 (v24 x0 x1 x2) (v28 x4) (v33 x11) (v39 x7) (v42 x8) (v45 x9) (v51 x12) (v54 x10) (v59 x3 x5 x6))
  | ⟨8, _⟩ => k1_pay28 (v24 x0 x1 x2) (v28 x4) (v33 x11) (v39 x7) (v42 x8) (v45 x9) (v51 x12) (v54 x10) (v59 x3 x5 x6)
  | ⟨9, _⟩ => k1_pay30 (v33 x11) (v51 x12) (k1_pay29 (v24 x0 x1 x2) (v28 x4) (v39 x7) (v42 x8) (v45 x9) (v54 x10) (v59 x3 x5 x6)) (constant S512x3 .f32 0x00000000#32)
  | ⟨10, _⟩ => k1_pay31 (v24 x0 x1 x2) (v28 x4) (v33 x11) (v39 x7) (v42 x8) (v45 x9) (v51 x12) (v54 x10) (v59 x3 x5 x6)
  | ⟨11, _⟩ => k1_pay33 (v33 x11) (v39 x7) (v42 x8) (v51 x12) (k1_pay32 (v24 x0 x1 x2) (v28 x4) (v45 x9) (v54 x10) (v59 x3 x5 x6))
  | ⟨12, _⟩ => k1_pay34 (v24 x0 x1 x2) (v28 x4) (v33 x11) (v39 x7) (v42 x8) (v45 x9) (v51 x12) (v54 x10) (v59 x3 x5 x6)
  | ⟨13, _⟩ => k1_pay36 (v33 x11) (v39 x7) (v42 x8) (v45 x9) (v51 x12) (v54 x10) (k1_pay35 (v24 x0 x1 x2) (v28 x4) (v59 x3 x5 x6)) (Scalar.ofBits .f32 0x00000000#32)
  | ⟨14, _⟩ => k1_pay1 (k1_pay37 (v24 x0 x1 x2) (v28 x4) (v33 x11) (v39 x7) (v42 x8) (v45 x9) (v51 x12) (v54 x10) (v59 x3 x5 x6))
  | ⟨15, _⟩ => k1_pay2 (v24 x0 x1 x2) (v28 x4) (v33 x11) (v39 x7) (v42 x8) (v45 x9) (v51 x12) (v54 x10) (v59 x3 x5 x6)
  | ⟨_ + 16, h⟩ => absurd h (by omega)

-- the output window's buffer after the body: its 16 stores as pieces, last first
def out1_13 : Vec F S16x3x512 .f32 :=
  View.canon (rows1.map fun b => ⟨r1 b, sv x0 x1 x2 x3 x4 x5 x6 x7 x8 x9 x10 x11 x12 b⟩)

-- the 16 rows tile the block, so they cover it
theorem cover1_13 (p : Fin 16 → Vec F S1x3x512 .f32) (y : S16x3x512.Idx) :
    ∃ pc ∈ (rows1.map fun b => (⟨r1 b, p b⟩ : View.Piece (Elt F) S16x3x512 .f32)), y ∈ pc.1.set :=
  View.cover_of_tiled (s := S16x3x512) _ S1x3x512.size (by rfl) y

-- the body keeps its inputs' contents and leaves `out1_13` of them in the output
theorem sound_kernel1 (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ (∃ d, owns c arg14 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare (out1_13 x0 x1 x2 x3 x4 x5 x6 x7 x8 x9 x10 x11 x12)) -∗ K ⟨⟩))
      ⊢ wp frame (wpE (defs₀ (F := F)) Variants.none c none) E (cc1__decode_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__decode_kernel_eq_skeleton]; unfold cc1__decode_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 (sv _ _ _ _ _ _ _ _ _ _ _ _ _))

end Cert.Kernel.R1

end
-- ==== Proof.BitsR1Dat.lean ====
import proofs.«402796_j36103495090325_3_alg».proof.Proof.BitsR1Run

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

-- window w's block at point t, read off its array as the region finds it
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

-- the proof data on core c: the arrays as found; after the body each input at its block, the output at `out1_13` of the inputs' blocks
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

theorem A_eq1 (w : Fin cfg1.W) : (dat1 V c).A w = V c (Pipeline.arrRef spec1 w) := by dsimp only [dat1]

theorem after1_13 (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

-- for an input window, what the body finds is what it leaves
theorem before1 (w : Fin 14) (hw : w ≠ 13) (t : Fin cfg1.N) (d) : (dat1 V c).before w t d = (dat1 V c).after w t := by
  fin_cases w <;> first
    | exact absurd rfl hw
    | exact ((dat1 V c).before_in_eq_fetched _ rfl (fun _ => rfl) (fun _ _ _ => rfl) (fun _ => rfl) t d).trans rfl

-- window w's part of what the body is called with at point t,
def pre1 (t : Fin cfg1.N) (w : Fin cfg1.W) : sProp 𝕄 :=
  iprop(∃ d, owns c ((cfg1.win w).stage (cfg1.slots t w)) fullShare ((dat1 V c).before w t d))

-- and of what it returns
def post1 (t : Fin cfg1.N) (w : Fin cfg1.W) : sProp 𝕄 :=
  owns c ((cfg1.win w).stage (cfg1.slots t w)) fullShare ((dat1 V c).after w t)

-- the inputs hold their blocks, so `sound_kernel1` applies; the invariant and what is owed pass through
theorem sound_body1 (t : Fin cfg1.N) :
    iprop((dat1 V c).Φ t.castSucc ∗ (dat1 V c).owesAt () t.castSucc ∗ pre1 V c t 0 ∗ pre1 V c t 1 ∗ pre1 V c t 2 ∗ pre1 V c t 3 ∗ pre1 V c t 4 ∗ pre1 V c t 5 ∗ pre1 V c t 6 ∗ pre1 V c t 7 ∗ pre1 V c t 8 ∗ pre1 V c t 9 ∗ pre1 V c t 10 ∗ pre1 V c t 11 ∗ pre1 V c t 12 ∗ pre1 V c t 13)
      ⊢ wp frame (wpE (defs₀ (F := F)) Variants.none c none) Set.univ (bodyAt1 t) fun _ =>
        iprop((dat1 V c).Φ t.castSucc ∗ (dat1 V c).owesAt () t.castSucc ∗ post1 V c t 0 ∗ post1 V c t 1 ∗ post1 V c t 2 ∗ post1 V c t 3 ∗ post1 V c t 4 ∗ post1 V c t 5 ∗ post1 V c t 6 ∗ post1 V c t 7 ∗ post1 V c t 8 ∗ post1 V c t 9 ∗ post1 V c t 10 ∗ post1 V c t 11 ∗ post1 V c t 12 ∗ post1 V c t 13) := by
  unfold pre1 post1
  simp (disch := decide) only [before1 V c]
  rw [after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t) ((dat1 V c).after 7 t) ((dat1 V c).after 8 t) ((dat1 V c).after 9 t) ((dat1 V c).after 10 t) ((dat1 V c).after 11 t) ((dat1 V c).after 12 t) _)
  iframe H0 H1 H2 H3 H4 H5 H6 H7 H8 H9 H10 H11 H12
  isplitl [H13]; · iexists _; iexact H13
  iintro ⟨H0, H1, H2, H3, H4, H5, H6, H7, H8, H9, H10, H11, H12, H13⟩
  iframe HΦ Ho H0 H1 H2 H3 H4 H5 H6 H7 H8 H9 H10 H11 H12
  iexact H13

theorem body_obligation1 : BodyObligation (dat1 (F := F) V c) (defs₀ (F := F)) Variants.none () Set.univ := fun t => by
  rw [bigSep_W1, bigSep_W1]
  exact sound_body1 V c t

end Cert.Kernel.R1

end
-- ==== Proof.BitsRunAll.lean ====
import proofs.«402796_j36103495090325_3_alg».proof.Proof.BitsSegs
import proofs.«402796_j36103495090325_3_alg».proof.Proof.BitsR0Dat
import proofs.«402796_j36103495090325_3_alg».proof.Proof.BitsR1Dat

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The valuations' unknowns with the two regions' output arrays given; every other reference keeps its launch contents. -/
def mkOuts (a0 : (c : Dev nD) → Buf (Elt F) ((c : Thread nD τ).loc main_v10)) (a1 : (c : Dev nD) → Buf (Elt F) ((c : Thread nD τ).loc main_v30)) : Outs (F := F) :=
  fun _ r c => Function.update (Function.update (fun r : Ref sig .tc => V0 m c r) main_v30 (a1 c)) main_v10 (a0 c) r

theorem mkOuts_v10 (a0 a1) (J : ℕ) (c : Dev nD) : mkOuts m a0 a1 J main_v10 c = a0 c :=
  Function.update_self _ _ _
theorem mkOuts_v30 (a0 a1) (J : ℕ) (c : Dev nD) : mkOuts m a0 a1 J main_v30 c = a1 c :=
  (Function.update_of_ne (by decide) _ _).trans (Function.update_self _ _ _)

def arr0 (c : Dev nD) : Buf (Elt F) ((c : Thread nD τ).loc main_v10) := (R0.dat0 (E4 m) c).arrAt 3 cfg0.N
def outsA : Outs (F := F) := mkOuts m (arr0 m) (fun c => V0 m c main_v30)
def arr1 (c : Dev nD) : Buf (Elt F) ((c : Thread nD τ).loc main_v30) := (R1.dat1 (E6 m (outsA m)) c).arrAt 13 cfg1.N
def outsB : Outs (F := F) := mkOuts m (arr0 m) (arr1 m)

def pdats : (p : Fin 2) → (c : Dev nD) → Dat τ (Elt F) Unit ℕ (UR sig nD τ) ℕ (cfgs p) c
  | ⟨0, _⟩ => fun c => R0.dat0 (E4 m) c
  | ⟨1, _⟩ => fun c => R1.dat1 (E6 m (outsA m)) c

/-- Region 1 reads nothing of its own output array, so its entry contents are the same under either choice of that array. -/
theorem hA1 (c : Dev nD) (w : Fin cfg1.W) : (pdats m 1 c).A w = E6 m (outsB m) c (Pipeline.arrRef spec1 w) := by
  refine (R1.A_eq1 (E6 m (outsA m)) c w).trans ?_
  simp only [E6, V6, V5, outsA, outsB, mkOuts_v10]

def R0seg := reg (pdats m) 0 launch0 3 (V4 m) (V5 m (outsB m)) (fun c => R0.body_obligation0 (E4 m) c) (fun c w => R0.A_eq0 (E4 m) c w)
  (fun _ _ => rfl) (fun _ _ => rfl) (fun _ _ => rfl) (fun c => R0.hin0 (E4 m) c) (fun c => R0.hout0 (E4 m) c) (by decide)
  (fun c => Eq.symm ((Function.update_self _ _ _).trans (mkOuts_v10 m _ _ 5 c))) (fun c b h => V5_of m _ c b (mt List.mem_singleton.1 h))

def R1seg := reg (pdats m) 1 launch1 13 (V6 m (outsB m)) (V7 m (outsB m)) (fun c => R1.body_obligation1 (E6 m (outsA m)) c) (hA1 m)
  (fun _ _ => rfl) (fun _ _ => rfl) (fun _ _ => rfl) (fun _ => .rfl) (fun _ => .rfl) (by decide)
  (fun c => Eq.symm ((Function.update_self _ _ _).trans (mkOuts_v30 m _ _ 7 c))) (fun c b h => V7_of m _ c b (mt List.mem_singleton.1 h))

set_option backward.isDefEq.respectTransparency.types false in
/-- Every weakly fair execution terminates, and each unscoped buffer ends at the last valuation. -/
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = V8 m (outsB m) c b) := by
  refine Pipeline.θ_run_regions_kit_dev (pcfgs (F := F)) adm (pdats m) () cellOf_inj emb₁ defs₀ 𝒱₀ L lv m ρ main
    (segs m (outsB m) 𝒱₀ L lv (fun _ c => R c) () (pdats m) (R0seg m) (R1seg m))
    (fun c Q => by rw [main_chain c, Seg.run_eq_chain]; exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V8 m (outsB m) c))
    (hch := fun c => ⟨.rfl, .rfl, .rfl, .rfl, .rfl, .rfl, .rfl, .rfl, sep_mono .rfl ?_⟩)
    (hinit := Pipeline.initEach L lv fun c => ?_)
    (QY := fun c s => ∀ b : Ref sig .tc, ¬ (Proc.devRef .tc b : DevRef τ sig).isScoped → s.mem ((c.tc : Thread nD τ).loc b) = V8 m (outsB m) c b)
    (hfin := fun c s' => ?_) (hQ := fun _ h => h)
  · iintro Hu; imodintro
    isplitl [Hu]
    · iapply (show (ownU _ : sProp 𝕄) ⊢ BI.own (emb₁ _) from .rfl); iexact Hu
    iapply (show (BI.emp : sProp 𝕄) ⊢ bigSep Finset.univ (fun _ : Dev nD => (BI.emp : sProp 𝕄)) from by rw [BI.bigSep_emp_const])
    iempintro
  · iintro ⟨-, HO⟩; iexact HO
  · refine (sep_mono (sep_mono (Entails.of_eq (Pipeline.unscopedBufs_held c (V0 m c))) .rfl) .rfl).trans ?_
    iintro ⟨⟨Hh, -, HO, -, Hp, -⟩, -⟩
    imodintro
    isplitl [Hh]; · iexact Hh
    isplitl [Hp]; · iexists _; iexact Hp
    iexists ∅; iexact HO
  · unfold StableHlo.held
    iintro H
    ihave Hr := (pointsTo_read_all (Pipeline.ucRefs τ sig) (fun b => ((c : Thread nD τ).1, b)) (V8 m (outsB m) c) s') $$ H
    icases Hr with ⟨%h, HSI⟩
    imodintro
    isplitr; · ipureintro; exact fun b hb => h _ (Finset.mem_filter.mpr ⟨StableHlo.devRef_mem_tcRefs b, hb⟩)
    iexact HSI

end Cert.Kernel.Run

end
-- ==== Proof.Segs.lean ====
import proofs.«402796_j36103495090325_3_alg».proof.Proof.Gen.KernelIdeal.Regions
import Idealize.ShloMosaic.Lib.Pipeline.RegionsLoop

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RegionSeg BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (outs : Outs (F := F))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev E4 (c : Dev nD) : (b : Ref sig .tc) → Buf (Elt F) ((c : Thread nD τ).loc b) := fun b => V4 m c b
abbrev E6 (c : Dev nD) : (b : Ref sig .tc) → Buf (Elt F) ((c : Thread nD τ).loc b) := fun b => V6 m outs c b

variable (pdats : (p : Fin 2) → (c : Dev nD) → Dat τ (Elt F) Unit ℕ (UR sig nD τ) ℕ (cfgs p) c)
  (p : Fin 2) (la : Pipeline.LaunchFacts (nD := nD) (τ := τ) cfgs p) (o : Fin (cfgs p).W)
  (V V' : Dev nD → Valuation τ sig (Elt F))
  (hb : ∀ c, BodyObligation (pdats p c) (defs₀ (F := F)) Variants.none () Set.univ)
  (hA : ∀ c w, (pdats p c).A w = V c (Pipeline.arrRef (cfgs p).spec w))
  (hq : ∀ c w, (pdats p c).q w = fullShare)
  (h0 : ∀ c t, (pdats p c).owed t = 0)
  (hr : ∀ c t, (pdats p c).recorded t = Set.univ)
  (hΦ : ∀ c, Pipeline.ΦA (cfgs p).spec c ⊢ (pdats p c).Φ 0)
  (hΦ' : ∀ c, (pdats p c).Φ (Fin.last (cfgs p).N) ⊢ Pipeline.ΦA (cfgs p).spec c)
  (hi : ∀ w, w ≠ o → ((cfgs p).win w).isOut = false)
  (hO : ∀ c, (pdats p c).arrAt o (cfgs p).N = V' c (Pipeline.arrRef (cfgs p).spec o))
  (hV : ∀ c (b : Ref sig .tc), b ≠ Pipeline.arrRef (cfgs p).spec o → V' c b = V c b)

set_option backward.isDefEq.respectTransparency.types false in
/-- Region `p` as a segment: its arrays are split out of the buffers at `V` on entry and put back at `V'`, which differs from `V` only at output window `o`'s array. -/
def reg : RegionSeg (pcfgs (F := F)) adm pdats () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (fun b => V c b)
  hentry c := by
    have hs := Pipeline.arrays_of_unscopedBufs (p := p) (pcfgs (F := F)) adm pdats la.win la.arr_whole c
      ((pdats p c).share_full (hq c)) (fun b => V c b) (hA c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hr c]; exact Set.mem_univ _)
      rw [h0 c]; iexact HO
    isplitl [Hp] <;> iassumption
  hin c := by
    refine BIBase.Entails.trans ?_ (hΦ c)
    unfold Pipeline.ΦA
    iintro ⟨Hp, -, Hr⟩
    isplitl [Hr] <;> iassumption
  hout c := by
    rw [Pipeline.ownSems0_none]
    refine (hΦ' c).trans ?_
    unfold Pipeline.ΦA
    iintro ⟨Hr, Hp⟩
    isplitl [Hp]; · iexact Hp
    isplitr; · iempintro
    iexact Hr
  hexit c := by
    have hj := Pipeline.unscopedBufs_of_arrays (p := p) (pcfgs (F := F)) adm la.win la.arr_whole c pdats ((pdats p c).share_full (hq c)) (fun b => V c b) (fun b => V' c b) ((pdats p c).arrAt · (cfgs p).N)
      (fun w => by
        rcases eq_or_ne w o with rfl | h
        · exact hO c
        · exact (((pdats p c).arrAt_in w (hi w h) _).trans (hA c w)).trans (hV c _ fun e => h (la.win.arr_inj e)).symm)
      (fun b hb => hV c b fun e => hb (Finset.mem_image.mpr ⟨o, Finset.mem_univ _, e.symm⟩))
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; rw [h0 c]; iexact HO

end Cert.KernelIdeal.Run

end
-- ==== Proof.R0Runs.lean ====
import proofs.«402796_j36103495090325_3_alg».proof.Proof.Gen.KernelIdeal.Launch
import proofs.«402796_j36103495090325_3_alg».proof.Proof.Gen.KernelIdeal.Skeleton
import proofs.«402796_j36103495090325_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.R0

open Gen Idealize.ShloMosaic TcCoe Tactic Idealize.SL RA BI BIBase ProofMode Sem Pipeline
open scoped Idealize.SL.BI

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 := by decide +kernel

abbrev cond0_1 (i : grid0.Coords) : Prop := k0_cond2 i = 1#1
theorem hcond0_1 : ∀ t : Fin cfg0.N, cond0_1 (grid0.coords t) ↔ t.val % 16 = 15 := by decide +kernel

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev VO0_3 : View sig .tc .vmem S1x1024x512 .f32 := (Memref.whole cc0_stg3_0 : Memref sig .tc .vmem S1x1024x512 .f32).view
abbrev ms0_0 (t : Fin cfg0.N) : Memref sig .tc .vmem S16x512x320 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S320x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .f32 := win0_3.stage (cfg0.slots t 3)
abbrev hs0_3 (t : Fin cfg0.N) : (ms0_3 t).IsWhole := hstage0_3 ((cfg0.slots t 3).cast nbuf0_3)
abbrev scM0_0 : Memref sig .tc .vmem S1024x512 .f32 := Memref.whole cc0_scratch0
abbrev VS0_0 : View sig .tc .vmem S1024x512 .f32 := scM0_0.view

/-- The other buffers the region holds, each at some contents. -/
def rest0 (c : Dev nD) : sProp 𝕄 :=
  bigSepL [cc1_stg0_0, cc1_stg0_1, cc1_stg1_0, cc1_stg2_0, cc1_stg3_0, cc1_stg3_1, cc1_stg4_0, cc1_stg5_0, cc1_stg6_0, cc1_stg7_0, cc1_stg8_0, cc1_stg9_0, cc1_stg10_0, cc1_stg11_0, cc1_stg12_0, cc1_stg13_0, cc1_stg13_1] fun b => iprop(∃ f : Buf (Elt F) ((c : Thread nD τ).loc b), ((c : Thread nD τ).loc b) ↦{fullShare} f)

theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

section Entry
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Entry

section Runs
variable (c : Dev nD) (i : grid0.Coords) (arg2 : Memref sig .tc .vmem S16x512x320 .f32) (harg2 : arg2.IsWhole) (arg3 : Memref sig .tc .vmem S512 .i32) (harg3 : arg3.IsWhole) (arg4 : Memref sig .tc .vmem S320x32 .f32) (harg4 : arg4.IsWhole) (arg5 : Memref sig .tc .vmem S1x1024x512 .f32) (harg5 : arg5.IsWhole) (arg6 : Memref sig .tc .vmem S1024x512 .f32) (harg6 : arg6.IsWhole)

/-- The body's triple: from the inputs, `P5` and `P6` to the inputs as found, `Q5` and the accumulator with the pieces `LS0` written. -/
abbrev Run0 (x0 : Vec F S16x512x320 .f32) (x1 : Vec F S512 .i32) (x2 : Vec F S320x32 .f32) (P5 P6 Q5 : sProp 𝕄) (LS0 : List (View.Piece (Elt F) S1024x512 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc0__sums_kernel i arg2 harg2 arg3 harg3 arg4 harg4 arg5 harg5 arg6 harg6) K

def kernelRun0_A (hc0 : cond0_0 i) (hc1 : ¬cond0_1 i) (x0 : Vec F S16x512x320 .f32) (x1 : Vec F S512 .i32) (x2 : Vec F S320x32 .f32) :
    Σ' (L3 : List (View.Piece (Elt F) S1x1024x512 .f32)), { LS0 : List (View.Piece (Elt F) S1024x512 .f32) //
      ∀ xi3 : Vec F S1x1024x512 .f32, Run0 c i arg2 harg2 arg3 harg3 arg4 harg4 arg5 harg5 arg6 harg6 x0 x1 x2 (owns (c : Thread nD τ) arg5 fullShare xi3) iprop(∃ d, owns (c : Thread nD τ) arg6 fullShare d) (owns (c : Thread nD τ) arg5 fullShare xi3) LS0 } := by
  refine ⟨[], ?_, fun xi3 E K => ?run⟩
  case run =>
    simp only [cc0__sums_kernel_eq_skeleton]; unfold cc0__sums_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def kernelRun0_B (hc0 : ¬cond0_0 i) (hc1 : ¬cond0_1 i) (x0 : Vec F S16x512x320 .f32) (x1 : Vec F S512 .i32) (x2 : Vec F S320x32 .f32) (xs0 : Vec F S1024x512 .f32) :
    Σ' (L3 : List (View.Piece (Elt F) S1x1024x512 .f32)), { LS0 : List (View.Piece (Elt F) S1024x512 .f32) //
      ∀ xi3 : Vec F S1x1024x512 .f32, Run0 c i arg2 harg2 arg3 harg3 arg4 harg4 arg5 harg5 arg6 harg6 x0 x1 x2 (owns (c : Thread nD τ) arg5 fullShare xi3) (owns (c : Thread nD τ) arg6 fullShare xs0) (owns (c : Thread nD τ) arg5 fullShare xi3) LS0 } := by
  refine ⟨[], ?_, fun xi3 E K => ?run⟩
  case run =>
    simp only [cc0__sums_kernel_eq_skeleton]; unfold cc0__sums_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def kernelRun0_C (hc0 : ¬cond0_0 i) (hc1 : cond0_1 i) (x0 : Vec F S16x512x320 .f32) (x1 : Vec F S512 .i32) (x2 : Vec F S320x32 .f32) (xs0 : Vec F S1024x512 .f32) :
    Σ' (L3 : List (View.Piece (Elt F) S1x1024x512 .f32)), { LS0 : List (View.Piece (Elt F) S1024x512 .f32) //
      Run0 c i arg2 harg2 arg3 harg3 arg4 harg4 arg5 harg5 arg6 harg6 x0 x1 x2 iprop(∃ d, owns (c : Thread nD τ) arg5 fullShare d) (owns (c : Thread nD τ) arg6 fullShare xs0) iprop(∃ f, arg5.view.loc (c : Thread nD τ) ↦[arg5.view.set]{fullShare} arg5.view.writes (Elt F) f L3) LS0 } := by
  refine ⟨?_, ?_, fun E K => ?run⟩
  case run =>
    simp only [cc0__sums_kernel_eq_skeleton]; unfold cc0__sums_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Runs

end Cert.KernelIdeal.R0

end
-- ==== Proof.R0Dat.lean ====
import proofs.«402796_j36103495090325_3_alg».proof.Proof.R0Runs

noncomputable section

namespace Cert.KernelIdeal.R0

open Gen Idealize.ShloMosaic TcCoe Tactic Idealize.SL RA BI BIBase ProofMode Sem Pipeline
open scoped Idealize.SL.BI

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b)) (c : Dev nD)

/-- The three cases' runs at point `t`: its coordinates, buffers and input blocks. -/
abbrev run0_A (t : Fin cfg0.N) (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (mt (hcond0_1 t).mp h1) (iblk0 V c 0 t) (iblk0 V c 1 t) (iblk0 V c 2 t)
abbrev run0_B (t : Fin cfg0.N) (h0 : ¬t.val % 16 = 0) (h1 : ¬t.val % 16 = 15) (xs0 : Vec F S1024x512 .f32) :=
  kernelRun0_B c (grid0.coords t) (ms0_0 t) (hs0_0 t) (ms0_1 t) (hs0_1 t) (ms0_2 t) (hs0_2 t) (ms0_3 t) (hs0_3 t) scM0_0 (Memref.isWhole_whole _) (mt (hcond0_0 t).mp h0) (mt (hcond0_1 t).mp h1) (iblk0 V c 0 t) (iblk0 V c 1 t) (iblk0 V c 2 t) xs0
abbrev run0_C (t : Fin cfg0.N) (h0 : ¬t.val % 16 = 0) (h1 : t.val % 16 = 15) (xs0 : Vec F S1024x512 .f32) :=
  kernelRun0_C c (grid0.coords t) (ms0_0 t) (hs0_0 t) (ms0_1 t) (hs0_1 t) (ms0_2 t) (hs0_2 t) (ms0_3 t) (hs0_3 t) scM0_0 (Memref.isWhole_whole _) (mt (hcond0_0 t).mp h0) ((hcond0_1 t).mpr h1) (iblk0 V c 0 t) (iblk0 V c 1 t) (iblk0 V c 2 t) xs0

/-- What each case leaves in the accumulator at point `t`, and the last case in the output block: the run's pieces read back. -/
def sout0_A (t : Fin cfg0.N) (h0 : t.val % 16 = 0) (h1 : ¬t.val % 16 = 15) : Vec F S1024x512 .f32 :=
  VS0_0.read (Elt F) (VS0_0.writes (Elt F) VS0_0.junk (run0_A V c t h0 h1).2.1)
def sout0_B (t : Fin cfg0.N) (h0 : ¬t.val % 16 = 0) (h1 : ¬t.val % 16 = 15) (xs0 : Vec F S1024x512 .f32) : Vec F S1024x512 .f32 :=
  VS0_0.read (Elt F) (VS0_0.writes (Elt F) VS0_0.junk (run0_B V c t h0 h1 xs0).2.1)
def sout0_C (t : Fin cfg0.N) (h0 : ¬t.val % 16 = 0) (h1 : t.val % 16 = 15) (xs0 : Vec F S1024x512 .f32) : Vec F S1024x512 .f32 :=
  VS0_0.read (Elt F) (VS0_0.writes (Elt F) VS0_0.junk (run0_C V c t h0 h1 xs0).2.1)
def out0_C (t : Fin cfg0.N) (h0 : ¬t.val % 16 = 0) (h1 : t.val % 16 = 15) (xs0 : Vec F S1024x512 .f32) : Vec F S1x1024x512 .f32 :=
  VO0_3.read (Elt F) (VO0_3.writes (Elt F) VO0_3.junk (run0_C V c t h0 h1 xs0).1)

/-- The output block and the accumulator after point `n`: a first point of a half starts from anything, every other point from what the point before left; the output block is named only where it is stored. -/
def outsAt0 : (n : ℕ) → n < cfg0.N → Vec F S1x1024x512 .f32 × Vec F S1024x512 .f32
  | 0, hn => (VO0_3.read (Elt F) VO0_3.junk, sout0_A V c ⟨0, hn⟩ (Nat.zero_mod _) (fun h => by (try dsimp only at h); omega))
  | n + 1, hn =>
    if h0 : (n + 1) % 16 = 0 then (VO0_3.read (Elt F) VO0_3.junk, sout0_A V c ⟨n + 1, hn⟩ h0 (fun h => by (try dsimp only at h); omega))
    else if h1 : (n + 1) % 16 = 15 then
      (out0_C V c ⟨n + 1, hn⟩ h0 h1 (outsAt0 n (Nat.lt_of_succ_lt hn)).2, sout0_C V c ⟨n + 1, hn⟩ h0 h1 (outsAt0 n (Nat.lt_of_succ_lt hn)).2)
    else (VO0_3.read (Elt F) VO0_3.junk, sout0_B V c ⟨n + 1, hn⟩ h0 h1 (outsAt0 n (Nat.lt_of_succ_lt hn)).2)

/-- The accumulator as point `t` finds it. -/
abbrev prev0 (t : Fin cfg0.N) : Vec F S1024x512 .f32 := (outsAt0 V c (t.val - 1) (Nat.lt_of_le_of_lt (Nat.sub_le _ _) t.isLt)).2

theorem outsAt0_A (t : Fin cfg0.N) (h0 : t.val % 16 = 0) (h1 : ¬t.val % 16 = 15) :
    outsAt0 V c t.val t.isLt = (VO0_3.read (Elt F) VO0_3.junk, sout0_A V c t h0 h1) := by
  obtain ⟨_ | n, hn⟩ := t
  · rfl
  · exact dif_pos h0

theorem outsAt0_B (t : Fin cfg0.N) (h0 : ¬t.val % 16 = 0) (h1 : ¬t.val % 16 = 15) :
    outsAt0 V c t.val t.isLt = (VO0_3.read (Elt F) VO0_3.junk, sout0_B V c t h0 h1 (prev0 V c t)) := by
  obtain ⟨_ | n, hn⟩ := t
  · exact absurd (Nat.zero_mod _) h0
  · exact (dif_neg h0).trans (dif_neg h1)

theorem outsAt0_C (t : Fin cfg0.N) (h0 : ¬t.val % 16 = 0) (h1 : t.val % 16 = 15) :
    outsAt0 V c t.val t.isLt = (out0_C V c t h0 h1 (prev0 V c t), sout0_C V c t h0 h1 (prev0 V c t)) := by
  obtain ⟨_ | n, hn⟩ := t
  · exact absurd (Nat.zero_mod _) h0
  · exact (dif_neg h0).trans (dif_pos h1)

/-- The region invariant before position `n`: the accumulator at what the point before left, at anything before the first. -/
def PhiS0 : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_pos (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-- At every position the invariant gives the accumulator at some contents. -/
theorem PhiS0_any (n : ℕ) (h : n ≤ cfg0.N) :
    PhiS0 V c n h ⊢ iprop(iprop((∃ d, owns (c : Thread nD τ) scM0_0 fullShare d) ∗ rest0 c) ∗ (∃ r, prngReg c r)) := by
  cases n with
  | zero => exact Entails.of_eq (PhiA0_eq c)
  | succ n =>
    rw [PhiS0]
    iintro ⟨⟨H, Hr⟩, Hg⟩
    iframe Hr Hg
    iexists _; iexact H

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl

theorem after0_3 (t : Fin cfg0.N) : (dat0 V c).after 3 t = (outsAt0 V c t.val t.isLt).1 := rfl

/-- The body at any point: the case's run applies, the invariant lends it the accumulator and takes it back at the pieces read back. -/
theorem sound_body0 (t : Fin cfg0.N) :
    iprop(PhiS0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ =>
      iprop(iprop(iprop(owns (c : Thread nD τ) scM0_0 fullShare ((outsAt0 V c t.val t.isLt).2) ∗ rest0 c) ∗ (∃ r, prngReg c r))
        ∗ (dat0 V c).owesAt () t.castSucc
        ∗ owns (c : Thread nD τ) (ms0_0 t) fullShare (iblk0 V c 0 t)
        ∗ owns (c : Thread nD τ) (ms0_1 t) fullShare (iblk0 V c 1 t)
        ∗ owns (c : Thread nD τ) (ms0_2 t) fullShare (iblk0 V c 2 t)
        ∗ (dat0 V c).leavesExact 3 t)) := by
  unfold bodyAt0
  simp only [before0_0_of V (dat0 V c) rfl fun _ => rfl, before0_1_of V (dat0 V c) rfl fun _ => rfl, before0_2_of V (dat0 V c) rfl fun _ => rfl]
  by_cases h1 : t.val % 16 = 15
  · have h0 : ¬t.val % 16 = 0 := by omega
    rw [PhiS0_pos V c _ _ (by omega), show (dat0 V c).leavesExact 3 t = owns (c : Thread nD τ) (ms0_3 t) fullShare ((dat0 V c).after 3 t) from by
      unfold Dat.leavesExact; rw [liveAt0_3 t ((hcond0_1 t).mpr h1)], after0_3, outsAt0_C V c t h0 h1]
    unfold out0_C sout0_C; dsimp only
    iintro ⟨⟨⟨HS0, Hr⟩, Hg⟩, Ho, ⟨%d0, H0⟩, ⟨%d1, H1⟩, ⟨%d2, H2⟩, ⟨%d3, H3⟩⟩
    iapply ((run0_C V c t h0 h1 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%f3, H3⟩, ⟨%f, HS0⟩⟩
    iframe Hr Hg Ho H0 H1 H2
    isplitl [HS0]
    · ihave H := (Ring.owns_of_writes_tiledL VS0_0 S1024x512.size) $$ HS0
      iapply H; ipureintro; sl_kernel_rfl
    ihave H := (Ring.owns_of_writes_tiledL VO0_3 S1x1024x512.size) $$ H3
    iapply H; ipureintro; sl_kernel_rfl
  have hc1 := mt (hcond0_1 t).mp h1
  rw [Dat.leavesExact_idle (dat0 V c) 3 t (idleAt0_3 t hc1) (noFlush0_3 t hc1)]
  by_cases h0 : t.val % 16 = 0
  case' pos =>
    rw [outsAt0_A V c t h0 h1]
    unfold sout0_A; dsimp only
    iintro ⟨HΦ, Ho, ⟨%d0, H0⟩, ⟨%d1, H1⟩, ⟨%d2, H2⟩, ⟨%d3, H3⟩⟩
    ihave H := (PhiS0_any V c _ _) $$ HΦ
    icases H with ⟨⟨HS0, Hr⟩, Hg⟩
    iapply ((run0_A V c t h0 h1).2.2 _ Set.univ _)
  case' neg =>
    rw [PhiS0_pos V c _ _ (by omega), outsAt0_B V c t h0 h1]
    unfold sout0_B; dsimp only
    iintro ⟨⟨⟨HS0, Hr⟩, Hg⟩, Ho, ⟨%d0, H0⟩, ⟨%d1, H1⟩, ⟨%d2, H2⟩, ⟨%d3, H3⟩⟩
    iapply ((run0_B V c t h0 h1 _).2.2 _ Set.univ _)
  all_goals
    isplitl [H0]; · iexact H0
    isplitl [H1]; · iexact H1
    isplitl [H2]; · iexact H2
    isplitl [H3]; · iexact H3
    isplitl [HS0]; · iexact HS0
    iintro ⟨H0, H1, H2, H3, ⟨%f, HS0⟩⟩
    iframe Hr Hg Ho H0 H1 H2
    isplitl [HS0]
    · ihave H := (Ring.owns_of_writes_tiledL VS0_0 S1024x512.size) $$ HS0
      iapply H; ipureintro; sl_kernel_rfl
    iexists _; iexact H3

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c :=
  (PhiS0_any V c cfg0.N le_rfl).trans (Entails.of_eq (PhiA0_eq c).symm)

end Entry

end Cert.KernelIdeal.R0

end
-- ==== Proof.R1Run.lean ====
import proofs.«402796_j36103495090325_3_alg».proof.Proof.Gen.KernelIdeal.Launch
import proofs.«402796_j36103495090325_3_alg».proof.Proof.Gen.KernelIdeal.Skeleton
import proofs.«402796_j36103495090325_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev rin1_0 : Rect S512 := Rect.unit (s := S512) ![0] S512.size inb_S512_S512_0
abbrev rin1_1 : Rect S2x1024x512 := Rect.unit (s := S2x1024x512) ![0, 0, 0] S2x1024x512.size inb_S2x1024x512_S2x1024x512_0_0_0
abbrev rin1_2 : Rect S1024x1 := Rect.unit (s := S1024x1) ![0, 0] S1024x1.size inb_S1024x1_S1024x1_0_0
abbrev rin1_3 : Rect S512x3 := Rect.unit (s := S512x3) ![0, 0] S512x3.size inb_S512x3_S512x3_0_0
abbrev rin1_4 : Rect S32x512 := Rect.unit (s := S32x512) ![0, 0] S32x512.size inb_S32x512_S32x512_0_0
abbrev rin1_5 : Rect S3x512 := Rect.unit (s := S3x512) ![0, 0] S3x512.size inb_S3x512_S3x512_0_0
abbrev rin1_6 : Rect S1x512 := Rect.unit (s := S1x512) ![0, 0] S1x512.size inb_S1x512_S1x512_0_0
abbrev rin1_7 : Rect S1x512 := Rect.unit (s := S1x512) ![0, 0] S1x512.size inb_S1x512_S1x512_0_0
abbrev rin1_8 : Rect S1x512 := Rect.unit (s := S1x512) ![0, 0] S1x512.size inb_S1x512_S1x512_0_0
abbrev rin1_9 : Rect S1x512 := Rect.unit (s := S1x512) ![0, 0] S1x512.size inb_S1x512_S1x512_0_0
abbrev rin1_10 : Rect S1x512 := Rect.unit (s := S1x512) ![0, 0] S1x512.size inb_S1x512_S1x512_0_0
abbrev rin1_11 : Rect S512x3 := Rect.unit (s := S512x3) ![0, 0] S512x3.size inb_S512x3_S512x3_0_0
abbrev rin1_12 : Rect S1x3 := Rect.unit (s := S1x3) ![0, 0] S1x3.size inb_S1x3_S1x3_0_0

-- row b of the output block: the rectangle [1,3,512] at offset [b,0,0]
abbrev r1 (b : Fin 16) : Rect S16x3x512 :=
  Rect.unit (s := S16x3x512) ![b.val, 0, 0] S1x3x512.size fun a => by
    have := b.isLt
    match a with
    | ⟨0, _⟩ => show b.val + 1 ≤ 16; omega
    | ⟨1, _⟩ => show 0 + 3 ≤ 3; omega
    | ⟨2, _⟩ => show 0 + 512 ≤ 512; omega
-- the rows in the order the pieces are listed: last store first
abbrev rows1 : List (Fin 16) := [15, 14, 13, 12, 11, 10, 9, 8, 7, 6, 5, 4, 3, 2, 1, 0]

variable (c : Dev nD) (E : Set ℕ) (i : grid1.Coords) (arg1 : Memref sig .tc .vmem S512 .i32) (harg1 : arg1.IsWhole) (arg2 : Memref sig .tc .vmem S2x1024x512 .f32) (harg2 : arg2.IsWhole) (arg3 : Memref sig .tc .vmem S1024x1 .f32) (harg3 : arg3.IsWhole) (arg4 : Memref sig .tc .vmem S512x3 .f32) (harg4 : arg4.IsWhole) (arg5 : Memref sig .tc .vmem S32x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x3 .f32) (harg12 : arg12.IsWhole) (arg13 : Memref sig .tc .vmem S1x3 .f32) (harg13 : arg13.IsWhole) (arg14 : Memref sig .tc .vmem S16x3x512 .f32) (harg14 : arg14.IsWhole)
  (x0 : Vec F S512 .i32) (x1 : Vec F S2x1024x512 .f32) (x2 : Vec F S1024x1 .f32) (x3 : Vec F S512x3 .f32) (x4 : Vec F S32x512 .f32) (x5 : Vec F S3x512 .f32) (x6 : Vec F S1x512 .f32) (x7 : Vec F S1x512 .f32) (x8 : Vec F S1x512 .f32) (x9 : Vec F S1x512 .f32) (x10 : Vec F S1x512 .f32) (x11 : Vec F S512x3 .f32) (x12 : Vec F S1x3 .f32)

-- the values the body computes, as functions of the input windows' blocks
def v24 := k1_pay3 (View.ld x0 rin1_0) (View.ld x1 rin1_1) (View.ld x2 rin1_2)
def v28 := k1_pay4 (View.ld x4 rin1_4)
def v31 := k1_pay5 (View.ld x5 rin1_5)
def v33 := k1_pay6 (View.ld x11 rin1_11)
def v36 := k1_pay7 (View.ld x6 rin1_6)
def v39 := k1_pay8 (View.ld x7 rin1_7)
def v42 := k1_pay9 (View.ld x8 rin1_8)
def v45 := k1_pay10 (View.ld x9 rin1_9)
def v51 := k1_pay11 (View.ld x12 rin1_12)
def v54 := k1_pay12 (View.ld x10 rin1_10)
def v59 := k1_pay13 (View.ld x3 rin1_3) (v31 x5) (v36 x6)
-- the payload of the store at row b of the output block
def sv (b : Fin 16) : FVec F S1x3x512 .f32 :=
  match b with
  | ⟨0, _⟩ => k1_pay15 (k1_pay14 (v24 x0 x1 x2) (View.ld x3 rin1_3) (v28 x4) (v31 x5) (v33 x11) (v36 x6) (View.ld x7 rin1_7) (View.ld x8 rin1_8) (View.ld x9 rin1_9) (View.ld x10 rin1_10) (View.ld x12 rin1_12))
  | ⟨1, _⟩ => k1_pay16 (v24 x0 x1 x2) (v28 x4) (v33 x11) (v39 x7) (v42 x8) (v45 x9) (v51 x12) (v54 x10) (v59 x3 x5 x6)
  | ⟨2, _⟩ => k1_pay18 (v33 x11) (v51 x12) (k1_pay17 (v24 x0 x1 x2) (v28 x4) (v39 x7) (v42 x8) (v45 x9) (v54 x10) (v59 x3 x5 x6))
  | ⟨3, _⟩ => k1_pay19 (v24 x0 x1 x2) (v28 x4) (v33 x11) (v39 x7) (v42 x8) (v45 x9) (v51 x12) (v54 x10) (v59 x3 x5 x6)
  | ⟨4, _⟩ => k1_pay22 (v33 x11) (v39 x7) (v42 x8) (v51 x12) (k1_pay20 (v24 x0 x1 x2) (v28 x4) (v45 x9) (v59 x3 x5 x6)) (k1_pay21 (v54 x10))
  | ⟨5, _⟩ => k1_pay23 (v24 x0 x1 x2) (v28 x4) (v33 x11) (v39 x7) (v42 x8) (v45 x9) (v51 x12) (v54 x10) (v59 x3 x5 x6)
  | ⟨6, _⟩ => k1_pay25 (v33 x11) (v39 x7) (v42 x8) (v45 x9) (v51 x12) (v54 x10) (v59 x3 x5 x6) (k1_pay24 (v24 x0 x1 x2) (v28 x4))
  | ⟨7, _⟩ => k1_pay27 (k1_pay26 (v24 x0 x1 x2) (v28 x4) (v33 x11) (v39 x7) (v42 x8) (v45 x9) (v51 x12) (v54 x10) (v59 x3 x5 x6))
  | ⟨8, _⟩ => k1_pay28 (v24 x0 x1 x2) (v28 x4) (v33 x11) (v39 x7) (v42 x8) (v45 x9) (v51 x12) (v54 x10) (v59 x3 x5 x6)
  | ⟨9, _⟩ => k1_pay30 (v33 x11) (v51 x12) (k1_pay29 (v24 x0 x1 x2) (v28 x4) (v39 x7) (v42 x8) (v45 x9) (v54 x10) (v59 x3 x5 x6)) (constant S512x3 .f32 0x00000000#32)
  | ⟨10, _⟩ => k1_pay31 (v24 x0 x1 x2) (v28 x4) (v33 x11) (v39 x7) (v42 x8) (v45 x9) (v51 x12) (v54 x10) (v59 x3 x5 x6)
  | ⟨11, _⟩ => k1_pay33 (v33 x11) (v39 x7) (v42 x8) (v51 x12) (k1_pay32 (v24 x0 x1 x2) (v28 x4) (v45 x9) (v54 x10) (v59 x3 x5 x6))
  | ⟨12, _⟩ => k1_pay34 (v24 x0 x1 x2) (v28 x4) (v33 x11) (v39 x7) (v42 x8) (v45 x9) (v51 x12) (v54 x10) (v59 x3 x5 x6)
  | ⟨13, _⟩ => k1_pay36 (v33 x11) (v39 x7) (v42 x8) (v45 x9) (v51 x12) (v54 x10) (k1_pay35 (v24 x0 x1 x2) (v28 x4) (v59 x3 x5 x6)) (Scalar.ofBits .f32 0x00000000#32)
  | ⟨14, _⟩ => k1_pay1 (k1_pay37 (v24 x0 x1 x2) (v28 x4) (v33 x11) (v39 x7) (v42 x8) (v45 x9) (v51 x12) (v54 x10) (v59 x3 x5 x6))
  | ⟨15, _⟩ => k1_pay2 (v24 x0 x1 x2) (v28 x4) (v33 x11) (v39 x7) (v42 x8) (v45 x9) (v51 x12) (v54 x10) (v59 x3 x5 x6)
  | ⟨_ + 16, h⟩ => absurd h (by omega)

-- the output window's buffer after the body: its 16 stores as pieces, last first
def out1_13 : Vec F S16x3x512 .f32 :=
  View.canon (rows1.map fun b => ⟨r1 b, sv x0 x1 x2 x3 x4 x5 x6 x7 x8 x9 x10 x11 x12 b⟩)

-- the 16 rows tile the block, so they cover it
theorem cover1_13 (p : Fin 16 → Vec F S1x3x512 .f32) (y : S16x3x512.Idx) :
    ∃ pc ∈ (rows1.map fun b => (⟨r1 b, p b⟩ : View.Piece (Elt F) S16x3x512 .f32)), y ∈ pc.1.set :=
  View.cover_of_tiled (s := S16x3x512) _ S1x3x512.size (by rfl) y

-- the body keeps its inputs' contents and leaves `out1_13` of them in the output
theorem sound_kernel1 (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ (∃ d, owns c arg14 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare (out1_13 x0 x1 x2 x3 x4 x5 x6 x7 x8 x9 x10 x11 x12)) -∗ K ⟨⟩))
      ⊢ wp frame (wpE (defs₀ (F := F)) Variants.none c none) E (cc1__decode_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__decode_kernel_eq_skeleton]; unfold cc1__decode_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 (sv _ _ _ _ _ _ _ _ _ _ _ _ _))

end Cert.KernelIdeal.R1

end
-- ==== Proof.R1Dat.lean ====
import proofs.«402796_j36103495090325_3_alg».proof.Proof.R1Run

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

-- window w's block at point t, read off its array as the region finds it
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

-- the proof data on core c: the arrays as found; after the body each input at its block, the output at `out1_13` of the inputs' blocks
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

theorem A_eq1 (w : Fin cfg1.W) : (dat1 V c).A w = V c (Pipeline.arrRef spec1 w) := by dsimp only [dat1]

theorem after1_13 (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

-- for an input window, what the body finds is what it leaves
theorem before1 (w : Fin 14) (hw : w ≠ 13) (t : Fin cfg1.N) (d) : (dat1 V c).before w t d = (dat1 V c).after w t := by
  fin_cases w <;> first
    | exact absurd rfl hw
    | exact ((dat1 V c).before_in_eq_fetched _ rfl (fun _ => rfl) (fun _ _ _ => rfl) (fun _ => rfl) t d).trans rfl

-- window w's part of what the body is called with at point t,
def pre1 (t : Fin cfg1.N) (w : Fin cfg1.W) : sProp 𝕄 :=
  iprop(∃ d, owns c ((cfg1.win w).stage (cfg1.slots t w)) fullShare ((dat1 V c).before w t d))

-- and of what it returns
def post1 (t : Fin cfg1.N) (w : Fin cfg1.W) : sProp 𝕄 :=
  owns c ((cfg1.win w).stage (cfg1.slots t w)) fullShare ((dat1 V c).after w t)

-- the inputs hold their blocks, so `sound_kernel1` applies; the invariant and what is owed pass through
theorem sound_body1 (t : Fin cfg1.N) :
    iprop((dat1 V c).Φ t.castSucc ∗ (dat1 V c).owesAt () t.castSucc ∗ pre1 V c t 0 ∗ pre1 V c t 1 ∗ pre1 V c t 2 ∗ pre1 V c t 3 ∗ pre1 V c t 4 ∗ pre1 V c t 5 ∗ pre1 V c t 6 ∗ pre1 V c t 7 ∗ pre1 V c t 8 ∗ pre1 V c t 9 ∗ pre1 V c t 10 ∗ pre1 V c t 11 ∗ pre1 V c t 12 ∗ pre1 V c t 13)
      ⊢ wp frame (wpE (defs₀ (F := F)) Variants.none c none) Set.univ (bodyAt1 t) fun _ =>
        iprop((dat1 V c).Φ t.castSucc ∗ (dat1 V c).owesAt () t.castSucc ∗ post1 V c t 0 ∗ post1 V c t 1 ∗ post1 V c t 2 ∗ post1 V c t 3 ∗ post1 V c t 4 ∗ post1 V c t 5 ∗ post1 V c t 6 ∗ post1 V c t 7 ∗ post1 V c t 8 ∗ post1 V c t 9 ∗ post1 V c t 10 ∗ post1 V c t 11 ∗ post1 V c t 12 ∗ post1 V c t 13) := by
  unfold pre1 post1
  simp (disch := decide) only [before1 V c]
  rw [after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t) ((dat1 V c).after 7 t) ((dat1 V c).after 8 t) ((dat1 V c).after 9 t) ((dat1 V c).after 10 t) ((dat1 V c).after 11 t) ((dat1 V c).after 12 t) _)
  iframe H0 H1 H2 H3 H4 H5 H6 H7 H8 H9 H10 H11 H12
  isplitl [H13]; · iexists _; iexact H13
  iintro ⟨H0, H1, H2, H3, H4, H5, H6, H7, H8, H9, H10, H11, H12, H13⟩
  iframe HΦ Ho H0 H1 H2 H3 H4 H5 H6 H7 H8 H9 H10 H11 H12
  iexact H13

theorem body_obligation1 : BodyObligation (dat1 (F := F) V c) (defs₀ (F := F)) Variants.none () Set.univ := fun t => by
  rw [bigSep_W1, bigSep_W1]
  exact sound_body1 V c t

end Cert.KernelIdeal.R1

end
-- ==== Proof.RunAll.lean ====
import proofs.«402796_j36103495090325_3_alg».proof.Proof.Segs
import proofs.«402796_j36103495090325_3_alg».proof.Proof.R0Dat
import proofs.«402796_j36103495090325_3_alg».proof.Proof.R1Dat

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The valuations' unknowns with the two regions' output arrays given; every other reference keeps its launch contents. -/
def mkOuts (a0 : (c : Dev nD) → Buf (Elt F) ((c : Thread nD τ).loc main_v10)) (a1 : (c : Dev nD) → Buf (Elt F) ((c : Thread nD τ).loc main_v30)) : Outs (F := F) :=
  fun _ r c => Function.update (Function.update (fun r : Ref sig .tc => V0 m c r) main_v30 (a1 c)) main_v10 (a0 c) r

theorem mkOuts_v10 (a0 a1) (J : ℕ) (c : Dev nD) : mkOuts m a0 a1 J main_v10 c = a0 c :=
  Function.update_self _ _ _
theorem mkOuts_v30 (a0 a1) (J : ℕ) (c : Dev nD) : mkOuts m a0 a1 J main_v30 c = a1 c :=
  (Function.update_of_ne (by decide) _ _).trans (Function.update_self _ _ _)

def arr0 (c : Dev nD) : Buf (Elt F) ((c : Thread nD τ).loc main_v10) := (R0.dat0 (E4 m) c).arrAt 3 cfg0.N
def outsA : Outs (F := F) := mkOuts m (arr0 m) (fun c => V0 m c main_v30)
def arr1 (c : Dev nD) : Buf (Elt F) ((c : Thread nD τ).loc main_v30) := (R1.dat1 (E6 m (outsA m)) c).arrAt 13 cfg1.N
def outsB : Outs (F := F) := mkOuts m (arr0 m) (arr1 m)

def pdats : (p : Fin 2) → (c : Dev nD) → Dat τ (Elt F) Unit ℕ (UR sig nD τ) ℕ (cfgs p) c
  | ⟨0, _⟩ => fun c => R0.dat0 (E4 m) c
  | ⟨1, _⟩ => fun c => R1.dat1 (E6 m (outsA m)) c

/-- Region 1 reads nothing of its own output array, so its entry contents are the same under either choice of that array. -/
theorem hA1 (c : Dev nD) (w : Fin cfg1.W) : (pdats m 1 c).A w = E6 m (outsB m) c (Pipeline.arrRef spec1 w) := by
  refine (R1.A_eq1 (E6 m (outsA m)) c w).trans ?_
  simp only [E6, V6, V5, outsA, outsB, mkOuts_v10]

def R0seg := reg (pdats m) 0 launch0 3 (V4 m) (V5 m (outsB m)) (fun c => R0.body_obligation0 (E4 m) c) (fun c w => R0.A_eq0 (E4 m) c w)
  (fun _ _ => rfl) (fun _ _ => rfl) (fun _ _ => rfl) (fun c => R0.hin0 (E4 m) c) (fun c => R0.hout0 (E4 m) c) (by decide)
  (fun c => Eq.symm ((Function.update_self _ _ _).trans (mkOuts_v10 m _ _ 5 c))) (fun c b h => V5_of m _ c b (mt List.mem_singleton.1 h))

def R1seg := reg (pdats m) 1 launch1 13 (V6 m (outsB m)) (V7 m (outsB m)) (fun c => R1.body_obligation1 (E6 m (outsA m)) c) (hA1 m)
  (fun _ _ => rfl) (fun _ _ => rfl) (fun _ _ => rfl) (fun _ => .rfl) (fun _ => .rfl) (by decide)
  (fun c => Eq.symm ((Function.update_self _ _ _).trans (mkOuts_v30 m _ _ 7 c))) (fun c b h => V7_of m _ c b (mt List.mem_singleton.1 h))

set_option backward.isDefEq.respectTransparency.types false in
/-- Every weakly fair execution terminates, and each unscoped buffer ends at the last valuation. -/
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = V8 m (outsB m) c b) := by
  refine Pipeline.θ_run_regions_kit_dev (pcfgs (F := F)) adm (pdats m) () cellOf_inj emb₁ defs₀ 𝒱₀ L lv m ρ main
    (segs m (outsB m) 𝒱₀ L lv (fun _ c => R c) () (pdats m) (R0seg m) (R1seg m))
    (fun c Q => by rw [main_chain c, Seg.run_eq_chain]; exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V8 m (outsB m) c))
    (hch := fun c => ⟨.rfl, .rfl, .rfl, .rfl, .rfl, .rfl, .rfl, .rfl, sep_mono .rfl ?_⟩)
    (hinit := Pipeline.initEach L lv fun c => ?_)
    (QY := fun c s => ∀ b : Ref sig .tc, ¬ (Proc.devRef .tc b : DevRef τ sig).isScoped → s.mem ((c.tc : Thread nD τ).loc b) = V8 m (outsB m) c b)
    (hfin := fun c s' => ?_) (hQ := fun _ h => h)
  · iintro Hu; imodintro
    isplitl [Hu]
    · iapply (show (ownU _ : sProp 𝕄) ⊢ BI.own (emb₁ _) from .rfl); iexact Hu
    iapply (show (BI.emp : sProp 𝕄) ⊢ bigSep Finset.univ (fun _ : Dev nD => (BI.emp : sProp 𝕄)) from by rw [BI.bigSep_emp_const])
    iempintro
  · iintro ⟨-, HO⟩; iexact HO
  · refine (sep_mono (sep_mono (Entails.of_eq (Pipeline.unscopedBufs_held c (V0 m c))) .rfl) .rfl).trans ?_
    iintro ⟨⟨Hh, -, HO, -, Hp, -⟩, -⟩
    imodintro
    isplitl [Hh]; · iexact Hh
    isplitl [Hp]; · iexists _; iexact Hp
    iexists ∅; iexact HO
  · unfold StableHlo.held
    iintro H
    ihave Hr := (pointsTo_read_all (Pipeline.ucRefs τ sig) (fun b => ((c : Thread nD τ).1, b)) (V8 m (outsB m) c) s') $$ H
    icases Hr with ⟨%h, HSI⟩
    imodintro
    isplitr; · ipureintro; exact fun b hb => h _ (Finset.mem_filter.mpr ⟨StableHlo.devRef_mem_tcRefs b, hb⟩)
    iexact HSI

end Cert.KernelIdeal.Run

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SX : Shape := ⟨2, ![262144, 320]⟩
abbrev SC : Shape := ⟨2, ![16384, 3]⟩
abbrev SS : Shape := ⟨1, ![16384]⟩
abbrev SW1 : Shape := ⟨2, ![35, 512]⟩
abbrev SH : Shape := ⟨1, ![512]⟩
abbrev SW2 : Shape := ⟨2, ![512, 3]⟩
abbrev SB2 : Shape := ⟨1, ![3]⟩

def atom (b : Fin 16) (n : Fin 16384) : Fin 262144 := ⟨b.val * 16384 + n.val, by omega⟩

def feat (k : Fin 32) (e : Fin 10) : Fin 320 := ⟨k.val * 10 + e.val, by omega⟩

def tileAtom (p : Fin 2) (t : Fin 16) (a : Fin 512) : Fin 16384 := ⟨p.val * 8192 + t.val * 512 + a.val, by omega⟩

def tileAtom32 (t : Fin 32) (a : Fin 512) : Fin 16384 := ⟨t.val * 512 + a.val, by omega⟩

def condRow (q : Fin 3) : Fin 35 := ⟨32 + q.val, by omega⟩

def binRow (k : Fin 32) : Fin 35 := ⟨k.val, by omega⟩

abbrev eps : EReal := Ideal.ofBits .f32 0x3727C5AC#32

variable (x : SX.Idx → EReal) (cond : SC.Idx → EReal) (seg : IVec SS 32) (W1 : SW1.Idx → EReal)
  (b1 gamma beta mean var : SH.Idx → EReal) (W2 : SW2.Idx → EReal) (b2 : SB2.Idx → EReal)

abbrev inSeg (n : Fin 16384) (r : Fin 1024) : Prop := (seg (ix1 n)).toNat = r.val

def segOf (hseg : ∀ n : Fin 16384, (seg (ix1 n)).toNat < 1024) (n : Fin 16384) : Fin 1024 := ⟨(seg (ix1 n)).toNat, hseg n⟩

def cnt (r : Fin 1024) : EReal := ∑ n : Fin 16384, if inSeg seg n r then (1 : EReal) else 0

def hidden (pre : EReal) (j : Fin 512) : EReal :=
  ((max pre 0 - mean (ix1 j)) * Ideal.rsqrt (var (ix1 j) + eps)) * gamma (ix1 j) + beta (ix1 j)

namespace Ref

def segsum (b : Fin 16) (r : Fin 1024) (d : Fin 320) : EReal :=
  ∑ n : Fin 16384, if inSeg seg n r then x (ix2 (atom b n) d) else 0

def segmean (b : Fin 16) (r : Fin 1024) (d : Fin 320) : EReal := Ideal.div (segsum x seg b r d) (max (cnt seg r) 1)

def pooled (b : Fin 16) (r : Fin 1024) (k : Fin 32) : EReal := Ideal.div (∑ e : Fin 10, segmean x seg b r (feat k e)) 10

def input (hseg : ∀ n : Fin 16384, (seg (ix1 n)).toNat < 1024) (b : Fin 16) (n : Fin 16384) (i : Fin 35) : EReal :=
  if h : i.val < 32 then pooled x seg b (segOf seg hseg n) ⟨i.val, h⟩ else cond (ix2 n ⟨i.val - 32, by omega⟩)
def pre (hseg : ∀ n : Fin 16384, (seg (ix1 n)).toNat < 1024) (b : Fin 16) (n : Fin 16384) (j : Fin 512) : EReal :=
  (∑ i : Fin 35, input x cond seg hseg b n i * W1 (ix2 i j)) + b1 (ix1 j)
def out (hseg : ∀ n : Fin 16384, (seg (ix1 n)).toNat < 1024) (b : Fin 16) (n : Fin 16384) (o : Fin 3) : EReal :=
  (∑ j : Fin 512, hidden gamma beta mean var (pre x cond seg W1 b1 hseg b n j) j * W2 (ix2 j o)) + b2 (ix1 o)

end Ref

namespace Ker

def pm (d : Fin 320) (k : Fin 32) : EReal := if d.val / 10 = k.val then 1 else 0

def oh (n : Fin 16384) (r : Fin 1024) : EReal := if inSeg seg n r then 1 else 0

def bins (b : Fin 16) (n : Fin 16384) (k : Fin 32) : EReal := ∑ d : Fin 320, x (ix2 (atom b n) d) * pm d k

def contrib (p : Fin 2) (t : Fin 16) (r : Fin 1024) (b : Fin 16) (k : Fin 32) : EReal :=
  ∑ a : Fin 512, oh seg (tileAtom p t a) r * bins x b (tileAtom p t a) k

def half (p : Fin 2) (r : Fin 1024) (b : Fin 16) (k : Fin 32) : EReal := ∑ t : Fin 16, contrib x seg p t r b k

def inv (r : Fin 1024) : EReal := Ideal.div 1 (max (cnt seg r) 1 * 10)
def pooled (r : Fin 1024) (b : Fin 16) (k : Fin 32) : EReal := (half x seg 0 r b k + half x seg 1 r b k) * inv seg r

def perAtom (n : Fin 16384) (b : Fin 16) (k : Fin 32) : EReal := ∑ r : Fin 1024, oh seg n r * pooled x seg r b k

def condPart (n : Fin 16384) (j : Fin 512) : EReal := (∑ q : Fin 3, cond (ix2 n q) * W1 (ix2 (condRow q) j)) + b1 (ix1 j)
def pre (b : Fin 16) (n : Fin 16384) (j : Fin 512) : EReal :=
  (∑ k : Fin 32, perAtom x seg n b k * W1 (ix2 (binRow k) j)) + condPart cond W1 b1 n j
def out (b : Fin 16) (n : Fin 16384) (o : Fin 3) : EReal :=
  (∑ j : Fin 512, hidden gamma beta mean var (pre x cond seg W1 b1 b n j) j * W2 (ix2 j o)) + b2 (ix1 o)

end Ker

end Cert.Spec

end
-- ==== Proof.LibCast3.lean ====
import Idealize.ShloMosaic.Lib.ValueIdx
import Idealize.ShloMosaic.Lib.ValueLayout
import Idealize.ShloMosaic.Lib.Pipeline.Value

namespace Cert.LibCast3

open Idealize.ShloMosaic Idealize.ShloMosaic.ValueIdx

/-- Both arrays list their entries in row-major order: (g, r) of [a, b, c] is row g * b + r of [a * b, c]. -/
theorem cast_mc_abc {α : Type} {a b c m : ℕ} (hm : m = a * b) (x : (⟨2, ![m, c]⟩ : Shape).Idx → α)
    (h : (⟨2, ![m, c]⟩ : Shape).ShapeCasts ⟨3, ![a, b, c]⟩) (g : Fin a) (r : Fin b) (n : Fin c) :
    shapeCast ⟨3, ![a, b, c]⟩ x h (ix3 g r n)
      = x (ix2 (⟨g.val * b + r.val, ((Nat.add_lt_add_left r.2 _).trans_le
          ((Nat.succ_mul _ b).symm.trans_le (Nat.mul_le_mul_right b g.2))).trans_eq hm.symm⟩ : Fin m) n) :=
  shapeCast_apply x h _ _ (by rw [Shape.rowMajor_val_three, Shape.rowMajor_val_two]; rfl)

end Cert.LibCast3
-- ==== Proof.LibScatter.lean ====
import Idealize.ShloMosaic.Lib.ValueIdxRank1
import Idealize.ShloMosaic.Lib.StableHlo.Predicate
import Idealize.ShloMosaic.Lib.Pipeline.Value
import Mathlib.Algebra.BigOperators.Fin

namespace Cert.LibScatter

open Idealize.ShloMosaic Idealize.ShloMosaic.ValueIdx

section
variable {s si u : Shape} {w : ℕ} (d : ScatterDims s si u) (idx : IVec si w) (i : s.Idx)

/-- An update lands on i exactly when, on every axis, its start plus its window coordinate is i's coordinate. -/
theorem resultIdx?_iff (j : u.Idx) :
    d.resultIdx? j idx = some i ↔ ∀ a, d.start j idx a + d.window j a = (i a).val := by
  unfold ScatterDims.resultIdx?
  by_cases hc : ∀ a, 0 ≤ d.start j idx a + d.window j a ∧ d.start j idx a + d.window j a < s.size a
  · rw [dif_pos hc, Option.some.injEq, funext_iff]
    exact forall_congr' fun a => by
      rw [Fin.ext_iff]
      have := (hc a).1
      show (_ : ℤ).toNat = _ ↔ _
      omega
  · rw [dif_neg hc]
    exact iff_of_false nofun fun h => hc fun a => by have := (i a).isLt; have := h a; omega

/-- The accumulating scatter read at i: the operand's entry plus the updates that land on i. -/
theorem scatterAdd_apply {φ : FTy} (x : FVec Ideal s φ) (upd : FVec Ideal u φ) :
    Host.scatterAdd (F := Ideal) d x idx upd i
      = x i + ∑ j, if ∀ a, d.start j idx a + d.window j a = (i a).val then upd j else 0 := by
  show x i + ∑ j ∈ Finset.univ.filter (fun j => d.resultIdx? j idx = some i), upd j = _
  rw [Finset.sum_filter]
  congr 1
  exact Finset.sum_congr rfl fun j _ => if_congr (resultIdx?_iff d idx i j) rfl rfl

end

/-- Below half the word range a word reads the same signed and unsigned; at or above it, it reads negative signed. -/
theorem toInt_eq_natCast_iff {w : Nat} (a : BitVec w) (i : Nat) (hi : 2 * i < 2 ^ w) :
    a.toInt = (i : ℤ) ↔ a.toNat = i := by
  have := a.isLt
  have : (2 ^ w : ℤ) = ((2 ^ w : ℕ) : ℤ) := by push_cast; rfl
  rw [BitVec.toInt_eq_toNat_cond]
  split <;> omega

/-- A segment sum: the scatter into a vector [N] at indices [M, 1] adds, at element i, the updates whose index is i. -/
theorem scatterAdd_vec_toNat {φ : FTy} {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ 32)
    (upd : FVec Ideal ⟨1, ![M]⟩ φ) (hN : N < 2 ^ 31) (i : Fin N) :
    Host.scatterAdd (F := Ideal) d x idx upd (ix1 i) =
      x (ix1 i) + ∑ j : Fin M, if (idx (ix2 j (0 : Fin 1))).toNat = i.val then upd (ix1 j) else 0 := by
  rw [scatterAdd_apply, ← Equiv.sum_comp idxEquiv1.symm]
  congr 1
  refine Finset.sum_congr rfl fun j _ => if_congr ?_ rfl rfl
  obtain ⟨uw, iw, sd, iv, wf⟩ := d
  dsimp only at h1 h2 h3 h4
  subst h1 h2 h3 h4
  have e : ScatterDims.siIdx ⟨[], [0], [0], 1, wf⟩ (ix1 j) ⟨0, Nat.one_pos⟩ = ix2 j 0 :=
    funext fun b => match b with | ⟨0, _⟩ => rfl | ⟨1, _⟩ => rfl
  refine Fin.forall_fin_one.trans ?_
  rw [← toInt_eq_natCast_iff _ _ (by have := i.isLt; omega), ← e]
  show (idx (ScatterDims.siIdx _ _ _)).toInt + ((0 : ℕ) : ℤ) = _ ↔ _
  rw [Nat.cast_zero, add_zero]
  rfl

end Cert.LibScatter
-- ==== Proof.HostVals.lean ====
import proofs.«402796_j36103495090325_3_alg».proof.Proof.Gen.KernelIdeal.Regions
import proofs.«402796_j36103495090325_3_alg».proof.Proof.Spec
import proofs.«402796_j36103495090325_3_alg».proof.Proof.LibCast3
import proofs.«402796_j36103495090325_3_alg».proof.Proof.LibScatter
import Idealize.ShloMosaic.Lib.IdealHost
import Idealize.ShloMosaic.Lib.StableHlo.Predicate
import Idealize.ShloMosaic.Lib.ValueLayout

noncomputable section

namespace Cert.KernelIdeal.HostVals

open Idealize.ShloMosaic Idealize.ShloMosaic.TcCoe Idealize.ShloMosaic.ValueIdx
open Cert.KernelIdeal Cert.KernelIdeal.Gen

variable (m : (ℓ : Loc nD τ sig) → Buf (Elt Ideal) ℓ) (outs : Outs (F := Ideal)) (c : Dev nD)

section
variable (r : Ref sig .tc) (h5 : r ∉ hostOps1_W := by decide) (h4 : r ∉ ([main_v10] : List (Ref sig .tc)) := by decide)
  (h3 : r ∉ hostOps0_3_W := by decide) (h2 : r ∉ hostOps0_2_W := by decide) (h1 : r ∉ hostOps0_1_W := by decide)
  (h0 : r ∉ hostOps0_W := by decide)

include h3 h2 h1 h0 in
/-- Outside every write list so far, a reference still has its initial value. -/
theorem V4_arg : V4 m c r = m ((c : Thread nD τ).loc r) :=
  (V4_of m c r h3).trans <| (V3_of m c r h2).trans <| (V2_of m c r h1).trans <| V1_of m c r h0

include h4 h3 h2 h1 h0 in
theorem V5_arg : V5 m outs c r = m ((c : Thread nD τ).loc r) :=
  (V5_of m outs c r h4).trans (V4_arg m c r h3 h2 h1 h0)

include h5 h4 h3 h2 h1 h0 in
theorem V6_arg : V6 m outs c r = m ((c : Thread nD τ).loc r) :=
  (V6_of m outs c r h5).trans (V5_arg m outs c r h4 h3 h2 h1 h0)

end

theorem V4_main_arg2 : V4 m c main_arg2 = m ((c : Thread nD τ).loc main_arg2) := V4_arg m c main_arg2
theorem V6_main_arg1 : V6 m outs c main_arg1 = m ((c : Thread nD τ).loc main_arg1) := V6_arg m outs c main_arg1
theorem V6_main_arg2 : V6 m outs c main_arg2 = m ((c : Thread nD τ).loc main_arg2) := V6_arg m outs c main_arg2
theorem V6_main_arg9 : V6 m outs c main_arg9 = m ((c : Thread nD τ).loc main_arg9) := V6_arg m outs c main_arg9

theorem V6_main_v10 : V6 m outs c main_v10 = outs 5 main_v10 c :=
  (V6_of m outs c main_v10 (by decide)).trans (Function.update_self _ _ _)

/-- Swapping the last two axes and flattening sends (b, o, n) to row b * 16384 + n, column o. -/
theorem V8_main_v32 (b : Fin 16) (n : Fin 16384) (o : Fin 3) :
    (V8 m outs c main_v32 : S262144x3.Idx → EReal) (ix2 (Cert.Spec.atom b n) o)
      = (outs 7 main_v30 c : S16x3x16384.Idx → EReal) (ix3 b o n) := by
  after_results
  exact (shapeCast_apply _ _ (ix2 (Cert.Spec.atom b n) o) (ix3 b n o) (by
    rw [Shape.rowMajor_val_three, Shape.rowMajor_val_two]; rfl)).trans
    (transpose_ix3_021_apply (m := 16) (a := 3) (b := 16384) _ _ b n o)

/-- The first layer's weights cut at row 32: the part for the pooled features. -/
theorem V6_main_v22 (k : Fin 32) (j : Fin 512) :
    (V6 m outs c main_v22 : S32x512.Idx → EReal) (ix2 k j)
      = (m ((c : Thread nD τ).loc main_arg3) : S35x512.Idx → EReal) (ix2 (Cert.Spec.binRow k) j) := by
  rw [← V5_arg m outs c main_arg3]; after_results
  exact slice2_axis0_apply 0 _ _ k j (Cert.Spec.binRow k) (Nat.zero_add _).symm

/-- The part for the conditioning numbers. -/
theorem V6_main_v23 (q : Fin 3) (j : Fin 512) :
    (V6 m outs c main_v23 : S3x512.Idx → EReal) (ix2 q j)
      = (m ((c : Thread nD τ).loc main_arg3) : S35x512.Idx → EReal) (ix2 (Cert.Spec.condRow q) j) := by
  rw [← V5_arg m outs c main_arg3]; after_results
  exact slice2_axis0_apply 32 _ _ q j (Cert.Spec.condRow q) rfl

theorem V6_main_v24 (j : Fin 512) :
    (V6 m outs c main_v24 : S1x512.Idx → EReal) (ix2 (0 : Fin 1) j) = (m ((c : Thread nD τ).loc main_arg4) : S512.Idx → EReal) (ix1 j) := by
  rw [← V5_arg m outs c main_arg4]; after_results; exact shapeCast_a_1a_apply _ _ 0 j
theorem V6_main_v25 (j : Fin 512) :
    (V6 m outs c main_v25 : S1x512.Idx → EReal) (ix2 (0 : Fin 1) j) = (m ((c : Thread nD τ).loc main_arg5) : S512.Idx → EReal) (ix1 j) := by
  rw [← V5_arg m outs c main_arg5]; after_results; exact shapeCast_a_1a_apply _ _ 0 j
theorem V6_main_v26 (j : Fin 512) :
    (V6 m outs c main_v26 : S1x512.Idx → EReal) (ix2 (0 : Fin 1) j) = (m ((c : Thread nD τ).loc main_arg6) : S512.Idx → EReal) (ix1 j) := by
  rw [← V5_arg m outs c main_arg6]; after_results; exact shapeCast_a_1a_apply _ _ 0 j
theorem V6_main_v27 (j : Fin 512) :
    (V6 m outs c main_v27 : S1x512.Idx → EReal) (ix2 (0 : Fin 1) j) = (m ((c : Thread nD τ).loc main_arg7) : S512.Idx → EReal) (ix1 j) := by
  rw [← V5_arg m outs c main_arg7]; after_results; exact shapeCast_a_1a_apply _ _ 0 j
theorem V6_main_v28 (j : Fin 512) :
    (V6 m outs c main_v28 : S1x512.Idx → EReal) (ix2 (0 : Fin 1) j) = (m ((c : Thread nD τ).loc main_arg8) : S512.Idx → EReal) (ix1 j) := by
  rw [← V5_arg m outs c main_arg8]; after_results; exact shapeCast_a_1a_apply _ _ 0 j
theorem V6_main_v29 (o : Fin 3) :
    (V6 m outs c main_v29 : S1x3.Idx → EReal) (ix2 (0 : Fin 1) o) = (m ((c : Thread nD τ).loc main_arg10) : S3.Idx → EReal) (ix1 o) := by
  rw [← V5_arg m outs c main_arg10]; after_results; exact shapeCast_a_1a_apply _ _ 0 o

/-- Flat row b * 16384 + n is entry (b, n) of the batch. -/
theorem V4_main_v0 (b : Fin 16) (n : Fin 16384) (d : Fin 320) :
    (V4 m c main_v0 : S16x16384x320.Idx → EReal) (ix3 b n d)
      = (m ((c : Thread nD τ).loc main_arg0) : S262144x320.Idx → EReal) (ix2 (Cert.Spec.atom b n) d) := by
  rw [V4_of m c main_v0 (by decide), V3_of m c main_v0 (by decide), V2_of m c main_v0 (by decide)]
  after_results
  exact Cert.LibCast3.cast_mc_abc (a := 16) (b := 16384) (c := 320) (m := 262144) rfl _ _ b n d

theorem ofBits_ten : Ideal.ofBits .f32 0x41200000#32 = (10 : EReal) := by
  rw [show (10 : EReal) = ((10 : ℝ) : EReal) by norm_cast]
  simp [Ideal.ofBits, Ideal.ieee, -EReal.coe_mul]; norm_num

/-- Scattering ones counts each residue's atoms; then 1 / (max count 1 * 10). -/
theorem V6_main_v21 (r : Fin 1024) :
    (V6 m outs c main_v21 : S1024x1.Idx → EReal) (ix2 r (0 : Fin 1))
      = Cert.Spec.Ker.inv (m ((c : Thread nD τ).loc main_arg2)) r := by
  rw [← V5_arg m outs c main_arg2]; after_results
  refine (shapeCast_apply _ _ (ix2 r (0 : Fin 1)) (ix1 r) (by
    rw [Shape.rowMajor_val_one, Shape.rowMajor_val_two]
    show r.val = r.val * 1 + 0
    omega)).trans ?_
  rw [hostDivf_apply, mulf_apply, maximumf_apply,
    Cert.LibScatter.scatterAdd_vec_toNat scatter_S1024_S16384x1_S16384_n_0_0_1 rfl rfl rfl rfl _ _ _ (by norm_num) r]
  have hidx (n : Fin 16384) := broadcastInDim_apply ![0] bcast_S16384_S16384x1_0 (V5 m outs c main_arg2 : IVec S16384 32)
    (ix2 n (0 : Fin 1)) (ix1 n) fun | ⟨0, _⟩ => rfl
  simp only [broadcastInDim_scalar_apply bcast_S_S1024, broadcastInDim_scalar_apply bcast_S_S16384, constant_apply, Ideal.ofBits_one_f32,
    ofBits_ten, Ideal.ofBits_zero_f32, zero_add, hidx]
  rfl

def sgnWord (a : BitVec 32) : BitVec 32 := if a = 0 then 0 else if a.msb then -1 else 1

/-- Floor division from truncated division: one less when the remainder is nonzero and the signs differ. -/
def fdivWord (a t : BitVec 32) : BitVec 32 :=
  Scalar.select
    (IntOp.andi (IntOp.cmpi .ne (sgnWord a) (sgnWord t)) (IntOp.cmpi .ne (IntOp.remsi .host a t) 0#32))
    (IntOp.subi (IntOp.divsi .host a t) 1#32) (IntOp.divsi .host a t)

theorem fdivWord_ofNat : ∀ p : Fin 320, fdivWord (BitVec.ofNat 32 p.val) 10#32 = BitVec.ofNat 32 (p.val / 10) := by
  decide +kernel

/-- The pooling matrix is the indicator of d / 10 = k, the quotient taken by floor division of words. -/
theorem V4_main_v9 (d : Fin 320) (k : Fin 32) :
    (V4 m c main_v9 : S320x32.Idx → EReal) (ix2 d k) = Cert.Spec.Ker.pm d k := by
  after_results_simp
  simp only [StableHlo.TRef.ofBuf, StableHlo.TRef.toBuf, cast_eq]
  show Scalar.select (IntOp.cmpi .eq (fdivWord (BitVec.ofNat 32 d.val) 10#32) (BitVec.ofNat 32 k.val))
    (Ideal.ofBits .f32 0x3F800000#32) (Ideal.ofBits .f32 0x00000000#32) = _
  rw [fdivWord_ofNat d, Ideal.ofBits_one_f32, Ideal.ofBits_zero_f32]
  unfold Cert.Spec.Ker.pm Scalar.select
  refine if_congr (StableHlo.Predicate.cmpi_eq_iff.trans ⟨fun h => ?_, fun h => by rw [h]⟩) rfl rfl
  have := congrArg BitVec.toNat h
  simp only [BitVec.toNat_ofNat] at this
  omega

end Cert.KernelIdeal.HostVals

end
-- ==== Proof.LibDot.lean ====
import Idealize.ShloMosaic.Lib.IdealHost

noncomputable section

namespace Cert.LibDot

open Idealize.ShloMosaic Idealize.ShloMosaic.ValueIdx

variable {M K N : Nat}

/-- The well-formedness field is a proposition, so the six lists determine the record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

/-- The one contraction axis has extent K, and the operand indices at (r, c), k are (r, k) and (k, c). -/
theorem kmatmul_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    matmul d prec a b (constant ⟨2, ![M, N]⟩ .f32 0x00000000#32) (ix2 r c) = ∑ k : Fin K, a (ix2 r k) * b (ix2 k c) := by
  subst hd
  refine (Ideal.matmul_constant_zero_apply _ prec a b _).trans ?_
  rw [← Equiv.sum_comp (contrEquiv1 (DotDims.plain M K N) K rfl rfl).symm]
  refine Finset.sum_congr rfl fun k _ => ?_
  congr 2 <;> funext ax <;> match ax with | ⟨0, _⟩ => rfl | ⟨1, _⟩ => rfl

end Cert.LibDot

end
-- ==== Proof.LibWord.lean ====
import Idealize.ShloMosaic.Lib.StableHlo.Predicate
import Idealize.ShloMosaic.Lib.IdealHost

namespace Cert.LibWord

open Idealize.ShloMosaic Idealize.ShloMosaic.ValueIdx

/-- Below 1024 the signed reading of a word is its value, so neither bound of [0, 1023] moves it. -/
theorem clamp_id (w : BitVec 32) (hw : w.toNat < 1024) : IntOp.minsi 1023#32 (IntOp.maxsi 0#32 w) = w := by
  have hti : w.toInt = w.toNat := StableHlo.Predicate.toInt_eq_toNat_of_lt (by omega)
  have h0 : (0#32 : BitVec 32).toInt = 0 := by decide
  have h1 : (1023#32 : BitVec 32).toInt = 1023 := by decide
  rw [show IntOp.maxsi 0#32 w = w from if_neg (by simp only [BitVec.slt, hti, h0, decide_eq_true_eq]; omega)]
  exact if_neg (by simp only [BitVec.slt, hti, h1, decide_eq_true_eq]; omega)

/-- Words are equal when their values are, and the word of r < 2 ^ 32 has value r. -/
theorem eq_ofNat_iff (w : BitVec 32) {r : ℕ} (hr : r < 2 ^ 32) : w = BitVec.ofNat 32 r ↔ w.toNat = r := by
  rw [BitVec.toNat_eq, BitVec.toNat_ofNat, Nat.mod_eq_of_lt hr]

/-- The comparison bit widened to a word and read as a number is the indicator of equality. -/
theorem bit_to_real (x y : BitVec 32) :
    (FloatOps.sitofp (F := Ideal) .f32 ((IntOp.cmpi .eq x y).setWidth 32) : EReal) = if x = y then 1 else 0 := by
  by_cases h : x = y
  · rw [if_pos h, StableHlo.Predicate.cmpi_eq_iff.mpr h]
    show (((1#1 : BitVec 1).setWidth 32).toInt : ℝ) = (1 : EReal)
    norm_num
  · rw [if_neg h, eq_zero_of_ne_one (mt StableHlo.Predicate.cmpi_eq_iff.mp h)]
    show (((0#1 : BitVec 1).setWidth 32).toInt : ℝ) = (0 : EReal)
    norm_num

end Cert.LibWord
-- ==== Proof.K0Pay.lean ====
import proofs.«402796_j36103495090325_3_alg».proof.Proof.Gen.KernelIdeal.Skeleton
import proofs.«402796_j36103495090325_3_alg».proof.Proof.LibDot
import proofs.«402796_j36103495090325_3_alg».proof.Proof.LibWord
import Idealize.ShloMosaic.Lib.ValueLayout
import Idealize.ShloMosaic.Lib.StableHlo.Predicate
import Idealize.ShloMosaic.PureOps.Ideal.Laws

noncomputable section

open scoped BigOperators

namespace Cert.KernelIdeal.K0Val

open Idealize.ShloMosaic Idealize.ShloMosaic.ValueIdx Idealize.SL.Sem
open Cert.KernelIdeal Cert.KernelIdeal.Gen Cert.LibWord

variable [Facts₀]

-- The membership matrix at (r, a): 1 when atom a's residue number is r, 0 otherwise.
theorem onehot_apply (s : Vec Ideal S512 .i32) (hs : ∀ a : Fin 512, (s (ix1 a)).toNat < 1024) (r : Fin 1024) (a : Fin 512) :
    k0_pay4 (F := Ideal) s (ix2 r a) = if (s (ix1 a)).toNat = r.val then (1 : EReal) else 0 := by
  show FloatOps.sitofp (F := Ideal) .f32 ((IntOp.cmpi .eq (iota _ _ _ _ _ _) (broadcastTo _ _ _ _)).setWidth 32) = _
  rw [iota_single_apply, broadcastTo_1b_ab_apply, shapeCast_a_1a_apply]
  show FloatOps.sitofp (F := Ideal) .f32 ((IntOp.cmpi .eq (BitVec.ofNat 32 r.val)
    (IntOp.minsi 1023#32 (IntOp.maxsi 0#32 (s (ix1 a))))).setWidth 32) = _
  rw [clamp_id _ (hs a), bit_to_real]
  exact if_congr (eq_comm.trans (eq_ofNat_iff _ (by have := r.isLt; omega))) rfl rfl

-- One frame's pooled tile at (a, k): row a of the frame against column k of the pooling matrix.
theorem frame_apply (pmat : Vec Ideal S320x32 .f32) (u : Vec Ideal S1x512x320 .f32) (a : Fin 512) (k : Fin 32) :
    k0_pay9 (F := Ideal) (k0_pay3 pmat) u (ix2 a k) = ∑ d : Fin 320, u (ix3 0 a d) * pmat (ix2 d k) := by
  unfold k0_pay9 k0_pay3
  rw [shapeCast_self, truncf_apply, Cert.LibDot.kmatmul_at _ (Cert.LibDot.eq_plain _ rfl rfl rfl rfl rfl rfl)]
  refine Finset.sum_congr rfl fun d _ => ?_
  rw [truncf_apply, truncf_apply, shapeCast_1ab_ab_apply]

-- Column j of the 512 lies in frame j / 32, at pooled feature j % 32.
abbrev frameOf (j : Fin 512) : Fin 16 := ⟨j.val / 32, by omega⟩
abbrev groupOf (j : Fin 512) : Fin 32 := ⟨j.val % 32, by omega⟩

-- One grid point adds the membership matrix times the sixteen pooled tiles side by side; each piece is one frame's tile.
theorem update_apply (s : Vec Ideal S512 .i32) (hs : ∀ a : Fin 512, (s (ix1 a)).toNat < 1024)
    (pmat : Vec Ideal S320x32 .f32) (v : Fin 16 → Vec Ideal S1x512x320 .f32) (acc : Vec Ideal S1024x512 .f32)
    (r : Fin 1024) (j : Fin 512) :
    k0_pay1 (F := Ideal) (k0_pay17 (k0_pay3 pmat) (k0_pay4 s) (k0_pay5 pmat (v 0)) (k0_pay6 pmat (v 1)) (k0_pay7 pmat (v 2)) (k0_pay8 pmat (v 3))
      (k0_pay9 (k0_pay3 pmat) (v 4)) (k0_pay10 (k0_pay3 pmat) (v 5)) (k0_pay11 (k0_pay3 pmat) (v 6)) (k0_pay12 (k0_pay3 pmat) (v 7))
      (k0_pay13 (k0_pay3 pmat) (v 8)) (k0_pay14 (k0_pay3 pmat) (v 9)) (k0_pay15 (k0_pay3 pmat) (v 10)) (v 11) (v 12) (v 13) (v 14) (v 15) acc) (ix2 r j)
      = acc (ix2 r j) + ∑ a : Fin 512, (if (s (ix1 a)).toNat = r.val then (1 : EReal) else 0)
          * ∑ d : Fin 320, v (frameOf j) (ix3 0 a d) * pmat (ix2 d (groupOf j)) := by
  unfold k0_pay1 k0_pay17
  rw [shapeCast_self, addf_apply, Cert.LibDot.kmatmul_at _ (Cert.LibDot.eq_plain _ rfl rfl rfl rfl rfl rfl)]
  refine congrArg (acc _ + ·) (Finset.sum_congr rfl fun a _ => ?_)
  rw [onehot_apply s hs, ← frame_apply]
  congr 1
  refine concatenate_ofFn_apply (t := S512x512) (1 : Fin 2) (fun n : Fin 16 => k0_pay9 (k0_pay3 pmat) (v n)) _ rfl 32 rfl _
    (frameOf j) rfl (ix2 a (groupOf j)) rfl fun ax hax => ?_
  match ax with
  | ⟨0, _⟩ => rfl
  | ⟨1, _⟩ => exact absurd rfl hax

-- The reset at a first point of a half: zero everywhere.
theorem pay16_apply (j : S1024x512.Idx) : k0_pay16 (F := Ideal) j = 0 := by
  unfold k0_pay16
  rw [shapeCast_self, broadcast_apply]
  exact Ideal.ofBits_zero_f32

-- At a last point of a half the running sums are copied out with a leading unit axis.
theorem pay2_apply (v : Vec Ideal S1024x512 .f32) (u : Fin 1) (r : Fin 1024) (j : Fin 512) :
    k0_pay2 (F := Ideal) v (ix3 u r j) = v (ix2 r j) := by
  unfold k0_pay2
  rw [shapeCast_ab_1ab_apply]

end Cert.KernelIdeal.K0Val

end
-- ==== Proof.R0Pieces.lean ====
import proofs.«402796_j36103495090325_3_alg».proof.Proof.R0Dat
import Idealize.ShloMosaic.Lib.Pipeline.Value

noncomputable section

namespace Cert.KernelIdeal.R0

open Gen Idealize.ShloMosaic Idealize.ShloMosaic.TcCoe

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

-- Slab n of the feature block: frame n's 512 x 320 tile.
abbrev slab (n : Fin 16) : Rect S16x512x320 := .unit ![n.val, 0, 0] S1x512x320.size (by revert n; decide)

def step0 (x0 : Vec F S16x512x320 .f32) (x1 : Vec F S512 .i32) (x2 : Vec F S320x32 .f32) (acc : Vec F S1024x512 .f32) :
    Vec F S1024x512 .f32 :=
  k0_pay1 (k0_pay17 (k0_pay3 x2) (k0_pay4 x1)
    (k0_pay5 x2 (View.ld x0 (slab 0))) (k0_pay6 x2 (View.ld x0 (slab 1))) (k0_pay7 x2 (View.ld x0 (slab 2))) (k0_pay8 x2 (View.ld x0 (slab 3)))
    (k0_pay9 (k0_pay3 x2) (View.ld x0 (slab 4))) (k0_pay10 (k0_pay3 x2) (View.ld x0 (slab 5))) (k0_pay11 (k0_pay3 x2) (View.ld x0 (slab 6)))
    (k0_pay12 (k0_pay3 x2) (View.ld x0 (slab 7))) (k0_pay13 (k0_pay3 x2) (View.ld x0 (slab 8))) (k0_pay14 (k0_pay3 x2) (View.ld x0 (slab 9)))
    (k0_pay15 (k0_pay3 x2) (View.ld x0 (slab 10)))
    (View.ld x0 (slab 11)) (View.ld x0 (slab 12)) (View.ld x0 (slab 13)) (View.ld x0 (slab 14)) (View.ld x0 (slab 15)) acc)

section Cases
variable (V : (c : Dev nD) → (b : Ref sig .tc) → Buf (Elt F) ((c : Thread nD τ).loc b)) (c : Dev nD) (t : Fin cfg0.N)

-- A first point of a half leaves the update of the zero block.
theorem sout0_A_eq (h0 : t.val % 16 = 0) (h1 : ¬t.val % 16 = 15) :
    sout0_A V c t h0 h1 = step0 (iblk0 V c 0 t) (iblk0 V c 1 t) (iblk0 V c 2 t) (k0_pay16 (F := F)) := by
  unfold sout0_A
  rw [View.read_writes_eq_canon]
  · unfold run0_A kernelRun0_A
    dsimp only
    sl_unfold_words
    rw [View.canon_cons_unit_zero (S := S1024x512) hz2, View.readCov_unit_zero (S := S1024x512) _ hz2]
    unfold step0
    simp only [View.readAt_eq_ld, (hs0_0 t).read_unread, (hs0_1 t).read_unread, (hs0_2 t).read_unread,
      View.ld_unit_zero (S := S320x32) hz2, View.ld_unit_zero (S := S512) hz1]
    rfl
  · exact View.cover_of_tiledL _ S1024x512.size (by sl_kernel_rfl)

variable (h0 : ¬t.val % 16 = 0) (xs0 : Vec F S1024x512 .f32)

-- A middle point leaves the update of what the point before left.
theorem sout0_B_eq (h1 : ¬t.val % 16 = 15) :
    sout0_B V c t h0 h1 xs0 = step0 (iblk0 V c 0 t) (iblk0 V c 1 t) (iblk0 V c 2 t) xs0 := by
  unfold sout0_B
  rw [View.read_writes_eq_canon]
  · unfold run0_B kernelRun0_B
    dsimp only
    sl_unfold_words
    rw [View.canon_unit_zero (S := S1024x512) hz2]
    unfold step0
    simp only [View.readAt_eq_ld, (hs0_0 t).read_unread, (hs0_1 t).read_unread, (hs0_2 t).read_unread, (Memref.isWhole_whole _).read_unread,
      View.ld_unit_zero (S := S320x32) hz2, View.ld_unit_zero (S := S512) hz1, View.ld_unit_zero (S := S1024x512) hz2]
    rfl
  · exact View.cover_of_tiledL _ S1024x512.size (by sl_kernel_rfl)

variable (h1 : t.val % 16 = 15)

-- So does a last point of a half, in the accumulator,
theorem sout0_C_eq : sout0_C V c t h0 h1 xs0 = step0 (iblk0 V c 0 t) (iblk0 V c 1 t) (iblk0 V c 2 t) xs0 := by
  unfold sout0_C
  rw [View.read_writes_eq_canon]
  · unfold run0_C kernelRun0_C
    dsimp only
    sl_unfold_words
    rw [View.canon_unit_zero (S := S1024x512) hz2]
    unfold step0
    simp only [View.readAt_eq_ld, (hs0_0 t).read_unread, (hs0_1 t).read_unread, (hs0_2 t).read_unread, (Memref.isWhole_whole _).read_unread,
      View.ld_unit_zero (S := S320x32) hz2, View.ld_unit_zero (S := S512) hz1, View.ld_unit_zero (S := S1024x512) hz2]
    rfl
  · exact View.cover_of_tiledL _ S1024x512.size (by sl_kernel_rfl)

-- and, laid out as one block, in the output.
theorem out0_C_eq : out0_C V c t h0 h1 xs0 = k0_pay2 (step0 (iblk0 V c 0 t) (iblk0 V c 1 t) (iblk0 V c 2 t) xs0) := by
  unfold out0_C
  rw [View.read_writes_eq_canon]
  · unfold run0_C kernelRun0_C
    dsimp only
    sl_unfold_words
    rw [View.canon_unit_zero (S := S1x1024x512) hz3, View.readCov_unit_zero (S := S1024x512) _ hz2]
    unfold step0
    simp only [View.readAt_eq_ld, (hs0_0 t).read_unread, (hs0_1 t).read_unread, (hs0_2 t).read_unread, (Memref.isWhole_whole _).read_unread,
      View.ld_unit_zero (S := S320x32) hz2, View.ld_unit_zero (S := S512) hz1, View.ld_unit_zero (S := S1024x512) hz2]
    rfl
  · exact View.cover_of_tiledL _ S1x1024x512.size (by sl_kernel_rfl)

end Cases

end Cert.KernelIdeal.R0

end
-- ==== Proof.K0Value.lean ====
import proofs.«402796_j36103495090325_3_alg».proof.Proof.K0Pay
import proofs.«402796_j36103495090325_3_alg».proof.Proof.R0Pieces
import proofs.«402796_j36103495090325_3_alg».proof.Proof.HostVals

noncomputable section

open scoped BigOperators

namespace Cert.KernelIdeal.K0Val

open Idealize.ShloMosaic Idealize.ShloMosaic.ValueIdx Idealize.ShloMosaic.TcCoe Idealize.SL.Sem
open Cert.KernelIdeal Cert.KernelIdeal.Gen Cert.Spec

variable (V : (c : Dev nD) → (b : Ref sig .tc) → Buf (Elt Ideal) ((c : Thread nD τ).loc b))

theorem N32 : cfg0.N = 32 := N_0

abbrev xblk (c : Dev nD) (t : Fin cfg0.N) : Vec Ideal S16x512x320 .f32 := R0.iblk0 V c 0 t
abbrev sblk (c : Dev nD) (t : Fin cfg0.N) : Vec Ideal S512 .i32 := R0.iblk0 V c 1 t
abbrev pblk (c : Dev nD) (t : Fin cfg0.N) : Vec Ideal S320x32 .f32 := R0.iblk0 V c 2 t
abbrev xarr (c : Dev nD) : Vec Ideal S16x16384x320 .f32 := V c main_v0
abbrev sarr (c : Dev nD) : Vec Ideal S16384 .i32 := V c main_arg2
abbrev parr (c : Dev nD) : Vec Ideal S320x32 .f32 := V c main_v9

theorem idx_facts : ∀ t : Fin cfg0.N,
    win0_0.index t (0 : Fin 3) = 0 ∧ win0_0.index t (1 : Fin 3) = t.val ∧ win0_0.index t (2 : Fin 3) = 0
    ∧ win0_1.index t (0 : Fin 1) = t.val
    ∧ win0_2.index t (0 : Fin 2) = 0 ∧ win0_2.index t (1 : Fin 2) = 0
    ∧ win0_3.index t (0 : Fin 3) = t.val / 16 ∧ win0_3.index t (1 : Fin 3) = 0 ∧ win0_3.index t (2 : Fin 3) = 0 :=
  (by decide +kernel : ∀ t : Fin grid0.N, _)

abbrev halfOf (t : Fin cfg0.N) : Fin 2 := ⟨t.val / 16, by have := t.isLt; have := N32; omega⟩
abbrev tileOf (t : Fin cfg0.N) : Fin 16 := ⟨t.val % 16, by omega⟩

-- The block of residue numbers at point t is atoms t * 512 .. t * 512 + 511: tile t % 16 of half t / 16.
theorem sblk_apply (c : Dev nD) (t : Fin cfg0.N) (a : Fin 512) :
    sblk V c t (ix1 a) = sarr V c (ix1 (tileAtom (halfOf t) (tileOf t) a)) := by
  obtain ⟨-, -, -, e, -⟩ := idx_facts t
  refine congrArg (V c main_arg2) (funext fun ax => Fin.ext ?_)
  match ax with
  | ⟨0, _⟩ => show win0_1.index t (0 : Fin 1) * 512 + 1 * a.val = t.val / 16 * 8192 + t.val % 16 * 512 + a.val; omega

theorem pblk_apply (c : Dev nD) (t : Fin cfg0.N) (d : Fin 320) (k : Fin 32) :
    pblk V c t (ix2 d k) = parr V c (ix2 d k) := by
  obtain ⟨-, -, -, -, e4, e5, -⟩ := idx_facts t
  refine congrArg (V c main_v9) (funext fun ax => Fin.ext ?_)
  match ax with
  | ⟨0, _⟩ => show win0_2.index t (0 : Fin 2) * 320 + 1 * d.val = d.val; omega
  | ⟨1, _⟩ => show win0_2.index t (1 : Fin 2) * 32 + 1 * k.val = k.val; omega

-- Slab b of the feature block at point t is frame b's tile.
theorem slab_apply (c : Dev nD) (t : Fin cfg0.N) (b : Fin 16) (a : Fin 512) (d : Fin 320) :
    View.ld (xblk V c t) (R0.slab b) (ix3 (0 : Fin 1) a d) = xarr V c (ix3 b (tileAtom (halfOf t) (tileOf t) a) d) := by
  obtain ⟨e0, e1, e2, -⟩ := idx_facts t
  refine congrArg (V c main_v0) (funext fun ax => Fin.ext ?_)
  match ax with
  | ⟨0, _⟩ => show win0_0.index t (0 : Fin 3) * 16 + 1 * (b.val + 1 * 0) = b.val; omega
  | ⟨1, _⟩ => show win0_0.index t (1 : Fin 3) * 512 + 1 * (0 + 1 * a.val) = t.val / 16 * 8192 + t.val % 16 * 512 + a.val; omega
  | ⟨2, _⟩ => show win0_0.index t (2 : Fin 3) * 320 + 1 * (0 + 1 * d.val) = d.val; omega

-- What the accumulator holds after point t: the update of zero at a first point of a half, else of what the point before left.
theorem acc_step (c : Dev nD) (t : Fin cfg0.N) :
    (R0.outsAt0 V c t.val t.isLt).2 = R0.step0 (xblk V c t) (sblk V c t) (pblk V c t)
      (if t.val % 16 = 0 then k0_pay16 (F := Ideal) else (R0.outsAt0 V c (t.val - 1) (by omega)).2) := by
  by_cases h0 : t.val % 16 = 0
  · rw [if_pos h0, R0.outsAt0_A V c t h0 (by omega), R0.sout0_A_eq]
  · by_cases h1 : t.val % 16 = 15
    · rw [if_neg h0, R0.outsAt0_C V c t h0 h1, R0.sout0_C_eq]
    · rw [if_neg h0, R0.outsAt0_B V c t h0 h1, R0.sout0_B_eq]

-- At a last point of a half the output block is the accumulator's new contents.
theorem out_last (c : Dev nD) (t : Fin cfg0.N) (h1 : t.val % 16 = 15) (u : Fin 1) (r : Fin 1024) (j : Fin 512) :
    (R0.outsAt0 V c t.val t.isLt).1 (ix3 u r j) = (R0.outsAt0 V c t.val t.isLt).2 (ix2 r j) := by
  rw [R0.outsAt0_C V c t (by omega) h1, R0.out0_C_eq, R0.sout0_C_eq]
  dsimp only
  exact pay2_apply _ u r j

variable (x : SX.Idx → EReal) (seg : IVec SS 32) (c : Dev nD)
  (hX : ∀ (b : Fin 16) (n : Fin 16384) (d : Fin 320), xarr V c (ix3 b n d) = x (ix2 (atom b n) d))
  (hS : sarr V c = seg)
  (hP : ∀ (d : Fin 320) (k : Fin 32), parr V c (ix2 d k) = Ker.pm d k)
  (hseg : ∀ n : Fin 16384, (seg (ix1 n)).toNat < 1024)

include hX hS hP hseg in
-- Point t adds tile t's contribution to whatever the accumulator holds.
theorem step_apply (t : Fin cfg0.N) (acc : Vec Ideal S1024x512 .f32) (r : Fin 1024) (j : Fin 512) :
    R0.step0 (F := Ideal) (xblk V c t) (sblk V c t) (pblk V c t) acc (ix2 r j)
      = acc (ix2 r j) + Ker.contrib x seg (halfOf t) (tileOf t) r (frameOf j) (groupOf j) := by
  refine (update_apply (sblk V c t) (fun a => by rw [sblk_apply, hS]; exact hseg _) (pblk V c t)
    (fun n => View.ld (xblk V c t) (R0.slab n)) acc r j).trans ?_
  refine congrArg (acc _ + ·) (Finset.sum_congr rfl fun a _ => ?_)
  rw [sblk_apply, hS]
  exact congrArg₂ HMul.hMul rfl (Finset.sum_congr rfl fun d _ => congrArg₂ HMul.hMul
    ((slab_apply V c t _ a d).trans (hX _ _ d)) ((pblk_apply V c t d _).trans (hP d _)))

include hX hS hP hseg in
-- After point n the accumulator holds the contributions of tiles 0 .. n % 16 of half n / 16.
theorem acc_inv (n : ℕ) (hn : n < cfg0.N) (r : Fin 1024) (j : Fin 512) :
    (R0.outsAt0 V c n hn).2 (ix2 r j) = ∑ q ∈ Finset.range (n % 16 + 1),
      if h : n / 16 < 2 ∧ q < 16 then Ker.contrib x seg ⟨n / 16, h.1⟩ ⟨q, h.2⟩ r (frameOf j) (groupOf j) else 0 := by
  have hN := N32
  induction n using Nat.strong_induction_on with | _ n ih => ?_
  rw [acc_step V c ⟨n, hn⟩, step_apply V x seg c hX hS hP hseg]
  by_cases h0 : n % 16 = 0
  · rw [if_pos h0, pay16_apply, zero_add, show n % 16 + 1 = 1 by omega, Finset.sum_range_one,
      dif_pos (show n / 16 < 2 ∧ 0 < 16 from ⟨by omega, by omega⟩)]
    exact congrArg (Ker.contrib x seg _ · r _ _) (Fin.ext h0)
  · rw [if_neg h0, ih (n - 1) (by omega) (by omega), show n % 16 + 1 = (n - 1) % 16 + 1 + 1 by omega,
      Finset.sum_range_succ _ ((n - 1) % 16 + 1), show (n - 1) / 16 = n / 16 by omega,
      dif_pos (show n / 16 < 2 ∧ (n - 1) % 16 + 1 < 16 from ⟨by omega, by omega⟩)]
    exact congrArg (_ + Ker.contrib x seg _ · r _ _) (Fin.ext (by show n % 16 = (n - 1) % 16 + 1; omega))

def sums2 : Vec Ideal S2x1024x512 .f32 := fun i =>
  Ker.half x seg ⟨(i 0).val, (i 0).isLt⟩ ⟨(i 1).val, (i 1).isLt⟩
    ⟨(i 2).val / 32, by have h : (i 2).val < 512 := (i 2).isLt; omega⟩ ⟨(i 2).val % 32, by omega⟩

-- Entry (u, r, j) of point t's output block is entry (t / 16, r, j) of the result array.
theorem oblk_emb (t : Fin cfg0.N) (u : Fin 1) (r : Fin 1024) (j : Fin 512) :
    ((cfg0.win 3).blk t).view.emb (ix3 u r j) = ix3 (halfOf t) r j := by
  obtain ⟨-, -, -, -, -, -, e6, e7, e8⟩ := idx_facts t
  refine funext fun ax => Fin.ext ?_
  match ax with
  | ⟨0, _⟩ => show win0_3.index t (0 : Fin 3) * 1 + 1 * u.val = t.val / 16; omega
  | ⟨1, _⟩ => show win0_3.index t (1 : Fin 3) * 1024 + 1 * r.val = r.val; omega
  | ⟨2, _⟩ => show win0_3.index t (2 : Fin 3) * 512 + 1 * j.val = j.val; omega

include hX hS hP hseg in
-- The output block a last point of a half leaves is its block of the array of half sums.
theorem flushed_eq (t : Fin cfg0.N) (hf : (cfg0.win 3).flush t = true) :
    (R0.dat0 V c).flushed 3 t = ((cfg0.win 3).blk t).view.read (Elt Ideal) (sums2 x seg) := by
  have hN := N32
  have h15 : t.val % 16 = 15 := (flush0_3 t).mp hf
  show (cfg0.win 3).cut (grid0.coords t) ((R0.dat0 V c).after 3 t) = _
  rw [R0.after0_3]
  funext y
  obtain ⟨u, r, j, rfl⟩ : ∃ (u : Fin 1) (r : Fin 1024) (j : Fin 512), y = ix3 u r j := ⟨y 0, y 1, y 2, eq_ix3 y⟩
  show (R0.outsAt0 V c t.val t.isLt).1 (ix3 u r j) = sums2 x seg _
  rw [oblk_emb, out_last V c t h15, acc_inv V x seg c hX hS hP hseg t.val t.isLt r j, show t.val % 16 + 1 = 16 by omega,
    ← Fin.sum_univ_eq_sum_range]
  unfold sums2 Ker.half
  exact Finset.sum_congr rfl fun q _ => dif_pos ⟨by omega, q.isLt⟩

include hX hS hP hseg in
-- Every entry (p, r, j) of the result array lies in the output block of point 16 p + 15.
theorem final : (R0.dat0 V c).arrAt 3 cfg0.N = sums2 x seg :=
  (R0.dat0 V c).arrAt_eq_of_cover 3 (sums2 x seg) (flushed_eq V x seg c hX hS hP hseg) fun i => by
    have hN := N32
    have h0 : (i 0 : Nat) < 2 := (i 0).isLt
    obtain ⟨t, ht⟩ : ∃ t : Fin cfg0.N, t.val = (i 0 : Nat) * 16 + 15 := ⟨⟨(i 0 : Nat) * 16 + 15, by omega⟩, rfl⟩
    have e := oblk_emb t 0 (i 1) (i 2)
    rw [show halfOf t = i 0 from Fin.ext (by show t.val / 16 = (i 0 : Nat); omega)] at e
    exact ⟨t, (flush0_3 t).mpr (by omega), e.trans (eq_ix3 i).symm ▸ View.emb_mem_set _ _⟩

-- Entry (p, r, j) of the array the first call leaves, from the arrays it is entered with, is half p's sum for residue r at column j.
theorem sums2_value (m : (ℓ : Loc nD τ sig) → Buf (Elt Ideal) ℓ) (c : Dev nD)
    (hseg : ∀ n : Fin 16384, ((m ((c : Thread nD τ).loc main_arg2) : IVec SS 32) (ix1 n)).toNat < 1024)
    (p : Fin 2) (r : Fin 1024) (j : Fin 512) :
    ((R0.dat0 (F := Ideal) (fun c b => V4 m c b) c).arrAt 3 cfg0.N : S2x1024x512.Idx → EReal) (ix3 p r j)
      = Ker.half (m ((c : Thread nD τ).loc main_arg0)) (m ((c : Thread nD τ).loc main_arg2)) p r (frameOf j) (groupOf j) := by
  rw [final (fun c b => V4 m c b) _ _ c (HostVals.V4_main_v0 m c) (HostVals.V4_main_arg2 m c) (HostVals.V4_main_v9 m c) hseg]
  rfl

end Cert.KernelIdeal.K0Val

end
-- ==== Proof.LibAt.lean ====
import Idealize.ShloMosaic.Lib.ValueLayout
import Idealize.ShloMosaic.PureOps.Ideal.Laws

namespace Cert.LibAt

open Idealize.ShloMosaic Idealize.ShloMosaic.ValueIdx

variable {α : Type}

/-- Broadcasting keeps the axis of equal extent and reads the unit axis at 0. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h _ _ fun ax => ?_
  match ax with
  | ⟨0, _⟩ =>
    show r.val = if a = 1 then 0 else r.val
    split <;> omega
  | ⟨1, _⟩ => rfl

end Cert.LibAt
-- ==== Proof.K1Pay.lean ====
import proofs.«402796_j36103495090325_3_alg».proof.Proof.Gen.KernelIdeal.Skeleton
import proofs.«402796_j36103495090325_3_alg».proof.Proof.Spec
import proofs.«402796_j36103495090325_3_alg».proof.Proof.LibDot
import proofs.«402796_j36103495090325_3_alg».proof.Proof.LibAt
import proofs.«402796_j36103495090325_3_alg».proof.Proof.LibWord
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.K1Val

open Cert.KernelIdeal Cert.KernelIdeal.Gen Cert.LibWord
open Idealize.ShloMosaic Idealize.ShloMosaic.ValueIdx

/-- Each of the four dot records is the plain matrix product of its extents. -/
theorem d32 : dot_S512x32_S32x512_S512x512_1_0_0_1_n_n = DotDims.plain 512 32 512 := Cert.LibDot.eq_plain _ rfl rfl rfl rfl rfl rfl
theorem d3 : dot_S512x3_S3x512_S512x512_1_0_0_1_n_n = DotDims.plain 512 3 512 := Cert.LibDot.eq_plain _ rfl rfl rfl rfl rfl rfl
theorem d512 : dot_S512x512_S512x3_S512x3_1_0_0_1_n_n = DotDims.plain 512 512 3 := Cert.LibDot.eq_plain _ rfl rfl rfl rfl rfl rfl
theorem d1024 : dot_S512x1024_S1024x512_S512x512_1_0_0_1_n_n = DotDims.plain 512 1024 512 := Cert.LibDot.eq_plain _ rfl rfl rfl rfl rfl rfl

variable {α : Type}

/-- Reshaping a vector to a one-column matrix keeps entry r at (r, 0). -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- The [1, a, b] slice at offset o of a [2, a, b] array is its plane o. -/
theorem half_apply {a b o : ℕ} (x : (⟨3, ![2, a, b]⟩ : Shape).Idx → α)
    (h : (⟨3, ![2, a, b]⟩ : Shape).Slices ![o, 0, 0] ⟨3, ![1, a, b]⟩) (u : Fin 1) (r : Fin a) (c : Fin b) :
    extractStridedSlice ⟨3, ![1, a, b]⟩ ![o, 0, 0] x h (ix3 u r c) = x (ix3 (⟨o, show o < 2 from h.2 0⟩ : Fin 2) r c) :=
  extractStridedSlice_apply _ x h _ _ (fun ax => by
    match ax with
    | ⟨0, _⟩ => show o = o + u.val; omega
    | ⟨1, _⟩ => exact (Nat.zero_add _).symm
    | ⟨2, _⟩ => exact (Nat.zero_add _).symm)

theorem iota_col_apply (h : S512x1024.Iotas .tc 32 [1]) (a : Fin 512) (r : Fin 1024) :
    iota .tc S512x1024 32 [1] h (ix2 a r) = BitVec.ofNat 32 r.val :=
  iota_single_apply .tc S512x1024 32 1 h (ix2 a r)

theorem maxsi_apply {s : Shape} {w : ℕ} (x y : IVec s w) (i : s.Idx) : maxsi x y i = IntOp.maxsi (x i) (y i) := rfl
theorem minsi_apply {s : Shape} {w : ℕ} (x y : IVec s w) (i : s.Idx) : minsi x y i = IntOp.minsi (x i) (y i) := rfl
theorem cmpi_apply {s : Shape} {w : ℕ} (p : CmpIPredicate) (x y : IVec s w) (i : s.Idx) : cmpi p x y i = IntOp.cmpi p (x i) (y i) := rfl
theorem rsqrt_apply {s : Shape} {φ : FTy} (x : FVec Ideal s φ) (i : s.Idx) : rsqrt x i = Ideal.rsqrt (x i) := rfl

section Chain

variable (v24 : FVec Ideal S512x512 .f32) (v28 : FVec Ideal S32x512 .bf16) (v33 : FVec Ideal S512x3 .bf16)
  (v39 v42 v45 : FVec Ideal S512 .f32) (v51 : FVec Ideal S3 .f32) (v54 : FVec Ideal S512 .f32) (v59 : FVec Ideal S512x512 .f32)

/-- Columns off to off + 31 of the gathered features, through the first layer's pooled rows. -/
def band (off : ℕ) (h : S512x512.Slices ![0, off] S512x32) : FVec Ideal S512x512 .f32 :=
  matmul dot_S512x32_S32x512_S512x512_1_0_0_1_n_n none
    (truncf .bf16 (extractStridedSlice S512x32 ![0, off] v24 h) bitsLt_bf16_f32) v28 (constant S512x512 .f32 0x00000000#32)

/-- Add the conditioning part, rectify, subtract the mean. -/
def act (x : FVec Ideal S512x512 .f32) : FVec Ideal S512x512 .f32 :=
  subf (maximumf (addf x v59) (broadcast S512x512 (Scalar.ofBits .f32 0x00000000#32)))
    (broadcastTo S512x512 (shapeCast S1x512 v45 shapeCasts_S512_S1x512) broadcasts_S1x512_S512x512)

/-- Multiply by the row w and by gamma, add beta. -/
def scale (x : FVec Ideal S512x512 .f32) (w : FVec Ideal S1x512 .f32) : FVec Ideal S512x512 .f32 :=
  addf (mulf (mulf x (broadcastTo S512x512 w broadcasts_S1x512_S512x512))
      (broadcastTo S512x512 (shapeCast S1x512 v39 shapeCasts_S512_S1x512) broadcasts_S1x512_S512x512))
    (broadcastTo S512x512 (shapeCast S1x512 v42 shapeCasts_S512_S1x512) broadcasts_S1x512_S512x512)

/-- Through the second layer, plus its bias, transposed to [3, 512]. -/
def emit (x : FVec Ideal S512x512 .f32) : FVec Ideal S3x512 .f32 :=
  transpose S3x512 [1, 0]
    (addf (matmul dot_S512x512_S512x3_S512x3_1_0_0_1_n_n none (truncf .bf16 x bitsLt_bf16_f32) v33 (constant S512x3 .f32 0x00000000#32))
      (broadcastTo S512x3 (shapeCast S1x3 v51 shapeCasts_S3_S1x3) broadcasts_S1x3_S512x3))
    transposes_S512x3_p1_0_S3x512

/-- One frame's [1, 3, 512] block: band, act, scale, emit in turn. -/
def frame (off : ℕ) (h : S512x512.Slices ![0, off] S512x32) : FVec Ideal S1x3x512 .f32 :=
  shapeCast S1x3x512
    (emit v33 v51 (scale v39 v42 (act v45 v59 (band v24 v28 off h)) (shapeCast S1x512 v54 shapeCasts_S512_S1x512)))
    shapeCasts_S3x512_S1x3x512

end Chain

variable (s : Vec Ideal S512 .i32) (sums : Vec Ideal S2x1024x512 .f32) (invs : Vec Ideal S1024x1 .f32)
  (cb : Vec Ideal S512x3 .f32) (w1b : Vec Ideal S32x512 .f32) (w1c : Vec Ideal S3x512 .f32)
  (b1r gr ber mr vr : Vec Ideal S1x512 .f32) (w2 : Vec Ideal S512x3 .f32) (b2r : Vec Ideal S1x3 .f32)

/-- Pooled feature J at atom a: the membership row of a against the two half-sums times the reciprocal. -/
def PA (a : Fin 512) (J : Fin 512) : EReal :=
  ∑ r : Fin 1024, (if (s (ix1 a)).toNat = r.val then (1 : EReal) else 0)
    * ((sums (ix3 (0 : Fin 2) r J) + sums (ix3 (1 : Fin 2) r J)) * invs (ix2 r (0 : Fin 1)))

/-- Frame b's k-th column, 32 b + k. -/
def col (b : Fin 16) (k : Fin 32) : Fin 512 := ⟨b.val * 32 + k.val, by omega⟩

/-- The three conditioning inputs through their rows of the first layer, plus its bias. -/
def condAt (a : Fin 512) (j : Fin 512) : EReal :=
  (∑ q : Fin 3, cb (ix2 a q) * w1c (ix2 q j)) + b1r (ix2 (0 : Fin 1) j)

/-- Pre-activation of frame b at (a, j): pooled part plus conditioning part. -/
def preAt (b : Fin 16) (a : Fin 512) (j : Fin 512) : EReal :=
  (∑ k : Fin 32, PA s sums invs a (col b k) * w1b (ix2 k j)) + condAt cb w1c b1r a j

/-- Hidden unit j: rectify, centre, divide by the deviation, scale and shift. -/
def hidAt (p : EReal) (j : Fin 512) : EReal :=
  ((max p 0 - mr (ix2 (0 : Fin 1) j)) * Ideal.rsqrt (vr (ix2 (0 : Fin 1) j) + Cert.Spec.eps)) * gr (ix2 (0 : Fin 1) j)
    + ber (ix2 (0 : Fin 1) j)

/-- Output o of frame b at atom a: the hidden units through the second layer, plus its bias. -/
def outAt (b : Fin 16) (a : Fin 512) (o : Fin 3) : EReal :=
  (∑ j : Fin 512, hidAt gr ber mr vr (preAt s sums invs cb w1b w1c b1r b a j) j * w2 (ix2 j o)) + b2r (ix2 (0 : Fin 1) o)

/-- The gathered features are PA: a clamped residue number compared with each column number gives the membership row. -/
theorem pay3_at (hs : ∀ a : Fin 512, (s (ix1 a)).toNat < 1024) (a J : Fin 512) :
    k1_pay3 (F := Ideal) s sums invs (ix2 a J) = PA s sums invs a J := by
  unfold PA
  simp only [k1_pay3, Cert.LibDot.kmatmul_at _ d1024, truncf_apply, sitofp_apply, extui_apply, cmpi_apply, minsi_apply, maxsi_apply, broadcast_apply,
    Cert.LibAt.broadcastTo_a1_ab_apply, shapeCast_a_a1_apply, iota_col_apply, mulf_apply, addf_apply, shapeCast_1ab_ab_apply,
    half_apply, shapeCast_self]
  refine Finset.sum_congr rfl fun r _ => ?_
  rw [clamp_id _ (hs a), bit_to_real, iota_col_apply, if_congr (eq_ofNat_iff _ (r := r.val) (by have := r.isLt; omega)) rfl rfl]
  rfl

/-- A frame's chain over the once-computed operands is outAt at that frame. -/
theorem frame_value (hs : ∀ a : Fin 512, (s (ix1 a)).toNat < 1024) (b : Fin 16) (off : ℕ) (hoff : off = b.val * 32)
    (h : S512x512.Slices ![0, off] S512x32) (u : Fin 1) (o : Fin 3) (a : Fin 512) :
    frame (k1_pay3 s sums invs) (k1_pay4 w1b) (k1_pay6 w2) (k1_pay8 gr) (k1_pay9 ber) (k1_pay10 mr) (k1_pay11 b2r) (k1_pay12 vr) (k1_pay13 cb (k1_pay5 w1c) (k1_pay7 b1r)) off h (ix3 u o a) = outAt s sums invs cb w1b w1c b1r gr ber mr vr w2 b2r b a o := by
  subst hoff
  unfold frame emit scale act band outAt preAt hidAt condAt
  rw [shapeCast_ab_1ab_apply, transpose_ix2_apply, addf_apply, Cert.LibDot.kmatmul_at _ d512, broadcastTo_1b_ab_apply, shapeCast_a_1a_apply]
  simp only [mulf_apply, subf_apply, maximumf_apply, Cert.LibDot.kmatmul_at _ d32, slice2_axis1_eq,
    show (FloatOps.ofBits .f32 0x00000000#32 : Ideal .f32) = 0 from Ideal.ofBits_zero_f32, pay3_at s sums invs hs, k1_pay4, k1_pay5, k1_pay6, k1_pay7, k1_pay8, k1_pay9, k1_pay10, k1_pay11, k1_pay12, k1_pay13,
    truncf_apply, shapeCast_self, shapeCast_1a_a_apply, rsqrt_apply, addf_apply, broadcast_apply, Cert.LibDot.kmatmul_at _ d3,
    broadcastTo_1b_ab_apply, shapeCast_a_1a_apply]
  rfl

end Cert.KernelIdeal.K1Val

end
-- ==== Proof.K1Value.lean ====
import proofs.«402796_j36103495090325_3_alg».proof.Proof.K1Pay
import proofs.«402796_j36103495090325_3_alg».proof.Proof.R1Dat
import proofs.«402796_j36103495090325_3_alg».proof.Proof.HostVals
import Idealize.ShloMosaic.Lib.Pipeline.Value

noncomputable section

open scoped BigOperators

namespace Cert.KernelIdeal.K1Val

open Cert.KernelIdeal Cert.KernelIdeal.Gen Cert.KernelIdeal.R1 Cert.Spec
open Idealize.ShloMosaic Idealize.ShloMosaic.TcCoe Idealize.ShloMosaic.ValueIdx
open Idealize.SL Idealize.SL.Sem
open Idealize.ShloMosaic.Pipeline (Dat Cfg Window)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem slOf (b : Fin 16) : S512x512.Slices ![0, b.val * 32] S512x32 :=
  ⟨rfl, fun a => by
    have hb := b.isLt
    match a with
    | ⟨0, _⟩ => show 0 + 512 ≤ 512; omega
    | ⟨1, _⟩ => show b.val * 32 + 32 ≤ 512; omega⟩

variable (x : SX.Idx → EReal) (cond : SC.Idx → EReal) (seg : IVec SS 32) (W1 : SW1.Idx → EReal)
  (b1 gamma beta mean var : SH.Idx → EReal) (W2 : SW2.Idx → EReal) (b2 : SB2.Idx → EReal)

/-- The specification's output array: frame, output row, atom. -/
def specArr (i : S16x3x16384.Idx) : EReal :=
  Ker.out x cond seg W1 b1 gamma beta mean var W2 b2 ⟨(i 0).val, (i 0).isLt⟩ ⟨(i 2).val, (i 2).isLt⟩ ⟨(i 1).val, (i 1).isLt⟩

/-- Tile t's block of it: frame, output row, atom of the tile. -/
def specBlk (t : Fin 32) (y : S16x3x512.Idx) : EReal :=
  specArr x cond seg W1 b1 gamma beta mean var W2 b2 (ix3 ⟨(y 0).val, (y 0).isLt⟩ ⟨(y 1).val, (y 1).isLt⟩ (tileAtom32 t ⟨(y 2).val, (y 2).isLt⟩))

section Blocks

variable {x cond seg W1 b1 gamma beta mean var W2 b2}
  {x0 : Vec Ideal S512 .i32} {x1 : Vec Ideal S2x1024x512 .f32} {x2 : Vec Ideal S1024x1 .f32}
  {x3 : Vec Ideal S512x3 .f32} {x4 : Vec Ideal S32x512 .f32} {x5 : Vec Ideal S3x512 .f32}
  {x6 x7 x8 x9 x10 : Vec Ideal S1x512 .f32} {x11 : Vec Ideal S512x3 .f32} {x12 : Vec Ideal S1x3 .f32} {t : Fin 32}
  (h0 : ∀ a : Fin 512, x0 (ix1 a) = seg (ix1 (tileAtom32 t a)))
  (h1 : ∀ (p : Fin 2) (r : Fin 1024) (b : Fin 16) (k : Fin 32), x1 (ix3 p r (col b k)) = Ker.half x seg p r b k)
  (h2 : ∀ r : Fin 1024, x2 (ix2 r (0 : Fin 1)) = Ker.inv seg r)
  (h3 : ∀ (a : Fin 512) (q : Fin 3), x3 (ix2 a q) = cond (ix2 (tileAtom32 t a) q))
  (h4 : ∀ (k : Fin 32) (j : Fin 512), x4 (ix2 k j) = W1 (ix2 (binRow k) j))
  (h5 : ∀ (q : Fin 3) (j : Fin 512), x5 (ix2 q j) = W1 (ix2 (condRow q) j))
  (h6 : ∀ j : Fin 512, x6 (ix2 (0 : Fin 1) j) = b1 (ix1 j))
  (h7 : ∀ j : Fin 512, x7 (ix2 (0 : Fin 1) j) = gamma (ix1 j))
  (h8 : ∀ j : Fin 512, x8 (ix2 (0 : Fin 1) j) = beta (ix1 j))
  (h9 : ∀ j : Fin 512, x9 (ix2 (0 : Fin 1) j) = mean (ix1 j))
  (h10 : ∀ j : Fin 512, x10 (ix2 (0 : Fin 1) j) = var (ix1 j))
  (h11 : ∀ (j : Fin 512) (o : Fin 3), x11 (ix2 j o) = W2 (ix2 j o))
  (h12 : ∀ o : Fin 3, x12 (ix2 (0 : Fin 1) o) = b2 (ix1 o))
  (hseg : ∀ n : Fin 16384, (seg (ix1 n)).toNat < 1024)

include h0 h1 h2 h3 h4 h5 h6 h7 h8 h9 h10 h11 h12 hseg

/-- Frame b's chain over blocks that hold tile t's data is row b of tile t's block of the specification's output. -/
theorem piece (b : Fin 16) {p : FVec Ideal S1x3x512 .f32}
    (hp : p = frame (k1_pay3 (View.ld x0 rin1_0) (View.ld x1 rin1_1) (View.ld x2 rin1_2)) (k1_pay4 (View.ld x4 rin1_4))
      (k1_pay6 (View.ld x11 rin1_11)) (k1_pay8 (View.ld x7 rin1_7)) (k1_pay9 (View.ld x8 rin1_8)) (k1_pay10 (View.ld x9 rin1_9))
      (k1_pay11 (View.ld x12 rin1_12)) (k1_pay12 (View.ld x10 rin1_10))
      (k1_pay13 (View.ld x3 rin1_3) (k1_pay5 (View.ld x5 rin1_5)) (k1_pay7 (View.ld x6 rin1_6))) (b.val * 32) (slOf b))
    (z : S1x3x512.Idx) : p z = specBlk x cond seg W1 b1 gamma beta mean var W2 b2 t ((r1 b).idx z) := by
  subst hp
  obtain ⟨u, o, a, rfl⟩ : ∃ (u : Fin 1) (o : Fin 3) (a : Fin 512), z = ix3 u o a := ⟨z 0, z 1, z 2, eq_ix3 z⟩
  simp only [View.ld_unit_zero (S := S512) hz1, View.ld_unit_zero (S := S2x1024x512) hz3, View.ld_unit_zero (S := S1024x1) hz2,
    View.ld_unit_zero (S := S512x3) hz2, View.ld_unit_zero (S := S32x512) hz2, View.ld_unit_zero (S := S3x512) hz2,
    View.ld_unit_zero (S := S1x512) hz2, View.ld_unit_zero (S := S1x3) hz2]
  rw [frame_value x0 x1 x2 x3 x4 x5 x6 x7 x8 x9 x10 x11 x12 (fun a => by rw [h0]; exact hseg _) b _ rfl,
    show (r1 b).idx (ix3 u o a) = ix3 b o a from funext fun ax => Fin.ext (by
      match ax with
      | ⟨0, _⟩ => show b.val + 1 * u.val = b.val; omega
      | ⟨1, _⟩ => show 0 + 1 * o.val = o.val; omega
      | ⟨2, _⟩ => show 0 + 1 * a.val = a.val; omega)]
  show _ = Ker.out x cond seg W1 b1 gamma beta mean var W2 b2 b (tileAtom32 t a) o
  unfold outAt preAt PA condAt hidAt Ker.out Ker.pre Ker.perAtom Ker.pooled Ker.oh Ker.condPart Cert.Spec.hidden
  simp only [h0, h1, h2, h3, h4, h5, h6, h7, h8, h9, h10, h11, h12]

/-- The sixteen rows together are tile t's block of the specification's output. -/
theorem out1_13_apply (y : S16x3x512.Idx) :
    out1_13 x0 x1 x2 x3 x4 x5 x6 x7 x8 x9 x10 x11 x12 y = specBlk x cond seg W1 b1 gamma beta mean var W2 b2 t y := by
  unfold out1_13
  refine View.canon_apply_of_pieces (Val := Elt Ideal) (specBlk x cond seg W1 b1 gamma beta mean var W2 b2 t) _ ?_ y (cover1_13 _ y)
  intro pc hpc z
  obtain ⟨b, -, rfl⟩ := List.mem_map.mp hpc
  exact piece h0 h1 h2 h3 h4 h5 h6 h7 h8 h9 h10 h11 h12 hseg b (by fin_cases b <;> rfl) z

end Blocks

section Array

theorem idxT : ∀ t : Fin cfg1.N, win1_0.index t (0 : Fin 1) = t.val ∧ win1_3.index t (0 : Fin 2) = t.val ∧ win1_3.index t (1 : Fin 2) = 0
    ∧ win1_13.index t (0 : Fin 3) = 0 ∧ win1_13.index t (1 : Fin 3) = 0 ∧ win1_13.index t (2 : Fin 3) = t.val :=
  (by decide +kernel : ∀ t : Fin grid1.N, _)
theorem idx0 : ∀ (t : Fin cfg1.N) (w : Fin cfg1.W), w ∉ [0, 3, 13] → ∀ a, (cfg1.win w).index t a = 0 :=
  (by decide +kernel : ∀ t : Fin grid1.N, _)

theorem N1 : cfg1.N = 32 := by decide

/-- The grid point as a tile number. -/
abbrev tileOf (t : Fin cfg1.N) : Fin 32 := ⟨t.val, lt_of_lt_of_eq t.isLt N1⟩

/-- Two indices with the same coordinates read the same entry. -/
theorem same {S : Shape} {α : Type} (A : S.Idx → α) {i j : S.Idx} (h : ∀ a, (i a : ℕ) = j a) : A i = A j :=
  congrArg A (funext fun a => Fin.ext (h a))

/-- With every block index zero the embedding keeps each coordinate. -/
theorem embZ (t : Fin cfg1.N) (w : Fin cfg1.W) (hw : w ∉ [0, 3, 13]) (y) (a) : (((cfg1.win w).rect t).emb y a : ℕ) = y a :=
  (cfg1.win w).rect_emb_val_of_index_zero t a (idx0 t w hw a) y

/-- The output's blocks tile the array: atom n is in the block of tile n / 512. -/
theorem cover13 (i : S16x3x16384.Idx) :
    ∃ t : Fin cfg1.N, (cfg1.win 13).flush t = true ∧ i ∈ ((cfg1.win 13).blk t).view.set := by
  have hi0 : (i 0).val < 16 := (i 0).isLt
  have hi1 : (i 1).val < 3 := (i 1).isLt
  have hi2 : (i 2).val < 16384 := (i 2).isLt
  have ht : (i 2).val / 512 < cfg1.N := by rw [N1]; omega
  obtain ⟨-, -, -, e0, e1, e2⟩ := idxT ⟨_, ht⟩
  have e2 : win1_13.index ⟨_, ht⟩ (2 : Fin 3) = (i 2).val / 512 := e2
  refine ⟨⟨_, ht⟩, flush1_13 _, ?_⟩
  show i ∈ ((View.whole main_v30).slice (win1_13.rect ⟨_, ht⟩)).set
  rw [View.set_slice_whole, Rect.mem_set_unit]
  intro a
  match a with
  | ⟨0, _⟩ => show win1_13.index ⟨_, ht⟩ (0 : Fin 3) * 16 ≤ (i 0).val ∧ (i 0).val < win1_13.index ⟨_, ht⟩ (0 : Fin 3) * 16 + 16; omega
  | ⟨1, _⟩ => show win1_13.index ⟨_, ht⟩ (1 : Fin 3) * 3 ≤ (i 1).val ∧ (i 1).val < win1_13.index ⟨_, ht⟩ (1 : Fin 3) * 3 + 3; omega
  | ⟨2, _⟩ => show win1_13.index ⟨_, ht⟩ (2 : Fin 3) * 512 ≤ (i 2).val ∧ (i 2).val < win1_13.index ⟨_, ht⟩ (2 : Fin 3) * 512 + 512; omega

variable (m : (ℓ : Loc nD τ sig) → Buf (Elt Ideal) ℓ) (outs : Outs (F := Ideal)) (c : Dev nD)

/-- Core c's contents at entry to region 1. -/
abbrev E1 (c : Dev nD) : (b : Ref sig .tc) → Buf (Elt Ideal) ((c : Thread nD τ).loc b) := fun b => V6 m outs c b

/-- Argument r as launched on core c. -/
abbrev arg (r : Ref sig .tc) : Buf (Elt Ideal) ((c : Thread nD τ).loc r) := m ((c : Thread nD τ).loc r)

/-- The specification's output array on the launch's arguments. -/
abbrev specM : S16x3x16384.Idx → EReal :=
  specArr (arg m c main_arg0) (arg m c main_arg1) (arg m c main_arg2) (arg m c main_arg3) (arg m c main_arg4) (arg m c main_arg5)
    (arg m c main_arg6) (arg m c main_arg7) (arg m c main_arg8) (arg m c main_arg9) (arg m c main_arg10)

variable (hSums : ∀ (p : Fin 2) (r : Fin 1024) (b : Fin 16) (k : Fin 32),
    (V6 m outs c main_v10 : S2x1024x512.Idx → EReal) (ix3 p r (⟨b.val * 32 + k.val, by omega⟩ : Fin 512))
      = Ker.half (arg m c main_arg0) (arg m c main_arg2) p r b k)
  (hseg : ∀ n : Fin 16384, ((arg m c main_arg2 : IVec SS 32) (ix1 n)).toNat < 1024)

include hSums hseg

/-- Grid point t's block of the output is block t of the specification's output array. -/
theorem flushed_eq {V : (c : Dev nD) → (b : Ref sig .tc) → Buf (Elt Ideal) ((c : Thread nD τ).loc b)} (hV : V = E1 m outs) (t : Fin cfg1.N) :
    (dat1 V c).flushed 13 t = ((cfg1.win 13).blk t).view.read (Elt Ideal) (specM m c) := by
  show (cfg1.win 13).cut (grid1.coords t) ((dat1 V c).after 13 t) = _
  rw [after1_13]
  funext j
  obtain ⟨e0, e3, e3', e13, e13', e13''⟩ := idxT t
  have Z := embZ t
  have hc : ∀ r, V c r = V6 m outs c r := fun r => congrFun (congrFun hV c) r
  refine (out1_13_apply (t := tileOf t)
    (fun a => (same (S := S16384) (V c main_arg2) fun ax => by
      match ax with
      | ⟨0, _⟩ => show win1_0.index t (0 : Fin 1) * 512 + 1 * a.val = t.val * 512 + a.val; omega).trans
        (congrFun (hc main_arg2 ▸ HostVals.V6_main_arg2 m outs c) _))
    (fun p r b k => (same (S := S2x1024x512) (V c main_v10) (Z 1 (by decide) _)).trans (hc main_v10 ▸ hSums p r b k))
    (fun r => (same (S := S1024x1) (V c main_v21) (Z 2 (by decide) _)).trans (hc main_v21 ▸ HostVals.V6_main_v21 m outs c r))
    (fun a q => (same (S := S16384x3) (V c main_arg1) fun ax => by
      match ax with
      | ⟨0, _⟩ => show win1_3.index t (0 : Fin 2) * 512 + 1 * a.val = t.val * 512 + a.val; omega
      | ⟨1, _⟩ => show win1_3.index t (1 : Fin 2) * 3 + 1 * q.val = q.val; omega).trans
        (congrFun (hc main_arg1 ▸ HostVals.V6_main_arg1 m outs c) _))
    (fun k j => (same (S := S32x512) (V c main_v22) (Z 4 (by decide) _)).trans (hc main_v22 ▸ HostVals.V6_main_v22 m outs c k j))
    (fun q j => (same (S := S3x512) (V c main_v23) (Z 5 (by decide) _)).trans (hc main_v23 ▸ HostVals.V6_main_v23 m outs c q j))
    (fun j => (same (S := S1x512) (V c main_v24) (Z 6 (by decide) _)).trans (hc main_v24 ▸ HostVals.V6_main_v24 m outs c j))
    (fun j => (same (S := S1x512) (V c main_v25) (Z 7 (by decide) _)).trans (hc main_v25 ▸ HostVals.V6_main_v25 m outs c j))
    (fun j => (same (S := S1x512) (V c main_v26) (Z 8 (by decide) _)).trans (hc main_v26 ▸ HostVals.V6_main_v26 m outs c j))
    (fun j => (same (S := S1x512) (V c main_v27) (Z 9 (by decide) _)).trans (hc main_v27 ▸ HostVals.V6_main_v27 m outs c j))
    (fun j => (same (S := S1x512) (V c main_v28) (Z 10 (by decide) _)).trans (hc main_v28 ▸ HostVals.V6_main_v28 m outs c j))
    (fun j o => (same (S := S512x3) (V c main_arg9) (Z 11 (by decide) _)).trans (congrFun (hc main_arg9 ▸ HostVals.V6_main_arg9 m outs c) _))
    (fun o => (same (S := S1x3) (V c main_v29) (Z 12 (by decide) _)).trans (hc main_v29 ▸ HostVals.V6_main_v29 m outs c o)) hseg j).trans ?_
  show _ = specM m c (((cfg1.win 13).blk t).view.emb j)
  refine same (S := S16x3x16384) (specM m c) fun ax => ?_
  match ax with
  | ⟨0, _⟩ => show (j 0).val = win1_13.index t (0 : Fin 3) * 16 + 1 * (j 0).val; omega
  | ⟨1, _⟩ => show (j 1).val = win1_13.index t (1 : Fin 3) * 3 + 1 * (j 1).val; omega
  | ⟨2, _⟩ => show t.val * 512 + (j 2).val = win1_13.index t (2 : Fin 3) * 512 + 1 * (j 2).val; omega

/-- The output array after region 1, at frame b, output row o, atom n, is the kernel-order specification's output. -/
theorem out_value (b : Fin 16) (n : Fin 16384) (o : Fin 3) :
    ((dat1 (E1 m outs) c).arrAt 13 cfg1.N : S16x3x16384.Idx → EReal) (ix3 b o n)
      = Ker.out (arg m c main_arg0) (arg m c main_arg1) (arg m c main_arg2) (arg m c main_arg3) (arg m c main_arg4) (arg m c main_arg5)
        (arg m c main_arg6) (arg m c main_arg7) (arg m c main_arg8) (arg m c main_arg9) (arg m c main_arg10) b n o :=
  congrFun ((dat1 (E1 m outs) c).arrAt_eq_of_cover 13 (specM m c) (fun t _ => flushed_eq m outs c hSums hseg rfl t) cover13) (ix3 b o n)

end Array

end Cert.KernelIdeal.K1Val

end
-- ==== Proof.KValue.lean ====
import proofs.«402796_j36103495090325_3_alg».proof.Proof.RunAll
import proofs.«402796_j36103495090325_3_alg».proof.Proof.HostVals
import proofs.«402796_j36103495090325_3_alg».proof.Proof.K0Value
import proofs.«402796_j36103495090325_3_alg».proof.Proof.K1Value

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Run Cert.KernelIdeal.HostVals

variable (m : (ℓ : Loc nD τ sig) → Buf (Elt Ideal) ℓ) (c : Dev nD)

/-- Chain the three values: the final change of layout, region 1's array, region 0's residue sums at column b * 32 + k. -/
theorem kernel_value (hseg : ∀ n : Fin 16384, ((m ((c : Thread nD τ).loc main_arg2) : IVec S16384 32) (ix1 n)).toNat < 1024)
    (b : Fin 16) (n : Fin 16384) (o : Fin 3) :
    (V8 m (outsB m) c main_v32 : S262144x3.Idx → EReal) (ix2 (Cert.Spec.atom b n) o)
      = Cert.Spec.Ker.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) b n o := by
  rw [V8_main_v32 m (outsB m) c b n o, show outsB m 7 main_v30 c = arr1 m c from mkOuts_v30 m _ _ 7 c]
  refine K1Val.out_value m (outsA m) c (fun p r b k => ?_) hseg b n o
  rw [V6_main_v10 m (outsA m) c, show outsA m 5 main_v10 c = arr0 m c from mkOuts_v10 m _ _ 5 c]
  refine (K0Val.sums2_value m c hseg p r _).trans ?_
  congr 1 <;> refine Fin.ext ?_
  · show (b.val * 32 + k.val) / 32 = b.val; omega
  · show (b.val * 32 + k.val) % 32 = k.val; omega

end Cert.KernelIdeal.KValue

end
-- ==== Proof.RefValue.lean ====
import proofs.«402796_j36103495090325_3_alg».proof.Proof.Gen.ReferenceIdeal.Run
import proofs.«402796_j36103495090325_3_alg».proof.Proof.Gen.ReferenceIdeal.Read
import proofs.«402796_j36103495090325_3_alg».proof.Proof.Spec
import proofs.«402796_j36103495090325_3_alg».proof.Proof.LibScatter
import proofs.«402796_j36103495090325_3_alg».proof.Proof.LibCast3
import Idealize.ShloMosaic.Lib.IdealHost

namespace Cert.RefValue

open Cert.ReferenceIdeal Cert.ReferenceIdeal.Gen Idealize.ShloMosaic Idealize.ShloMosaic.ValueIdx
open Cert.Spec (atom feat)

theorem forall_fin_three {P : Fin 3 → Prop} : (∀ x, P x) ↔ P 0 ∧ P 1 ∧ P 2 :=
  ⟨fun h => ⟨h 0, h 1, h 2⟩, fun h x => match x with | ⟨0, _⟩ => h.1 | ⟨1, _⟩ => h.2.1 | ⟨2, _⟩ => h.2.2⟩

/-- A rank-3 index is its middle coordinate and the pair of its outer ones. -/
def idxEquiv3 {n0 n1 n2 : Nat} : (⟨3, ![n0, n1, n2]⟩ : Shape).Idx ≃ Fin n1 × Fin n0 × Fin n2 where
  toFun i := (i 1, i 0, i 2)
  invFun p := ix3 p.2.1 p.1 p.2.2
  left_inv i := (eq_ix3 i).symm
  right_inv _ := rfl

/-- Scattering [A, M, C] updates into [A, N, C] along the middle axis adds, at (a, i, c), the entries (a, j, c) with index i. -/
theorem scatterAdd_3_toNat {φ : FTy} {A N C M : Nat} (d : ScatterDims ⟨3, ![A, N, C]⟩ ⟨2, ![M, 1]⟩ ⟨3, ![A, M, C]⟩)
    (h1 : d.updateWindowDims = [0, 2]) (h2 : d.insertedWindowDims = [1]) (h3 : d.scatterDimsToOperandDims = [1])
    (h4 : d.indexVectorDim = 1) (x : FVec Ideal ⟨3, ![A, N, C]⟩ φ) (idx : IVec ⟨2, ![M, 1]⟩ 32)
    (upd : FVec Ideal ⟨3, ![A, M, C]⟩ φ) (hN : N < 2 ^ 31) (a : Fin A) (i : Fin N) (c : Fin C) :
    Host.scatterAdd (F := Ideal) d x idx upd (ix3 a i c) =
      x (ix3 a i c) + ∑ j : Fin M, if (idx (ix2 j (0 : Fin 1))).toNat = i.val then upd (ix3 a j c) else 0 := by
  rw [LibScatter.scatterAdd_apply, ← Equiv.sum_comp idxEquiv3.symm, Fintype.sum_prod_type]
  congr 1
  refine Finset.sum_congr rfl fun j _ => ?_
  have key : ∀ p : Fin A × Fin C,
      (∀ ax, d.start (ix3 p.1 j p.2) idx ax + d.window (ix3 p.1 j p.2) ax = ((ix3 a i c) ax).val)
        ↔ p = (a, c) ∧ (idx (ix2 j (0 : Fin 1))).toNat = i.val := by
    intro p
    obtain ⟨uw, iw, sd, iv, wf⟩ := d
    dsimp only at h1 h2 h3 h4
    subst h1 h2 h3 h4
    have e : ∀ k, ScatterDims.siIdx ⟨[0, 2], [1], [1], 1, wf⟩ (ix3 p.1 j p.2) k = ix2 j 0 := fun k =>
      funext fun b => match b with | ⟨0, _⟩ => rfl | ⟨1, _⟩ => Fin.ext (Nat.lt_one_iff.mp k.isLt)
    rw [← LibScatter.toInt_eq_natCast_iff _ _ (by have := i.isLt; omega), Prod.ext_iff, Fin.ext_iff, Fin.ext_iff]
    refine forall_fin_three.trans ?_
    show (0 + ((p.1.val : ℕ) : ℤ) = a.val ∧ (idx (ScatterDims.siIdx _ _ _)).toInt + ((0 : ℕ) : ℤ) = i.val
      ∧ 0 + ((p.2.val : ℕ) : ℤ) = c.val) ↔ (p.1.val = a.val ∧ p.2.val = c.val) ∧ _
    rw [e]
    omega
  refine (Finset.sum_congr rfl fun p _ => if_congr (key p) rfl rfl).trans ?_
  simp only [ite_and, Finset.sum_ite_eq', Finset.mem_univ, if_true]
  rfl

/-- Gathering from [A, N, C] along the middle axis reads, at (a, j, c), the operand at (a, q, c), q being position j's index. -/
theorem gather_3 {α : Type} {A N C M : Nat} (d : GatherDims ⟨3, ![A, N, C]⟩ ⟨2, ![M, 1]⟩ ⟨3, ![A, M, C]⟩)
    (hoff : d.offsetDims = [0, 2]) (hcoll : d.collapsedSliceDims = [1]) (hob : d.operandBatchingDims = [])
    (hsim : d.startIndexMap = [1]) (hivd : d.indexVectorDim = 1)
    (x : (⟨3, ![A, N, C]⟩ : Shape).Idx → α) (idx : IVec ⟨2, ![M, 1]⟩ 32) (hN : N < 2 ^ 31)
    (a : Fin A) (j : Fin M) (c : Fin C) (q : Fin N) (hq : (idx (ix2 j (0 : Fin 1))).toNat = q.val) :
    Host.gather d x idx (ix3 a j c) = x (ix3 a q c) := by
  have hsl : d.sliceSizes 1 = 1 := d.slice_collapsed 1 (by rw [hcoll]; exact List.mem_singleton.mpr rfl)
  obtain ⟨od, cd, ob, sb, sm, iv, ss, wf⟩ := d
  dsimp only at hoff hcoll hob hsim hivd hsl
  subst hoff hcoll hob hsim hivd
  have e : ∀ k, GatherDims.siIdx ⟨[0, 2], [1], [], sb, [1], 1, ss, wf⟩ (ix3 a j c) k = ix2 j 0 := fun k =>
    funext fun b => match b with | ⟨0, _⟩ => rfl | ⟨1, _⟩ => Fin.ext (Nat.lt_one_iff.mp k.isLt)
  refine congrArg x (funext fun ax => Fin.ext ?_)
  match ax with
  | ⟨0, _⟩ => show 0 + 0 + a.val = a.val; omega
  | ⟨1, _⟩ =>
    show min (idx (GatherDims.siIdx _ _ _)).toInt.toNat (N - ss 1) + 0 + 0 = q.val
    have := q.isLt
    rw [e, hsl, StableHlo.Predicate.toInt_eq_toNat_of_lt (by omega), Int.toNat_natCast]
    omega
  | ⟨2, _⟩ => show 0 + 0 + c.val = c.val; omega

theorem ofBits_ten : Ideal.ofBits .f32 0x41200000#32 = 10 := by
  have h : Ideal.ofBits .f32 0x41200000#32 = ((10 : ℝ) : EReal) := by
    simp [Ideal.ofBits, Ideal.ieee, -EReal.coe_mul]; norm_num
  rw [h]
  rfl

section Stages
variable (x0 : (⟨S262144x320, .f32⟩ : BufTy).Contents (Elt Ideal)) (x1 : (⟨S16384x3, .f32⟩ : BufTy).Contents (Elt Ideal))
  (x2 : (⟨S16384, .i32⟩ : BufTy).Contents (Elt Ideal)) (x3 : (⟨S35x512, .f32⟩ : BufTy).Contents (Elt Ideal))
  (x4 x5 x6 x7 x8 : (⟨S512, .f32⟩ : BufTy).Contents (Elt Ideal)) (x9 : (⟨S512x3, .f32⟩ : BufTy).Contents (Elt Ideal))
  (x10 : (⟨S3, .f32⟩ : BufTy).Contents (Elt Ideal))

/-- Both scatters' index column holds the residue numbers. -/
theorem v3_at (n : Fin 16384) : Read.val_main_v3 (F := Ideal) x2 (ix2 n (0 : Fin 1)) = x2 (ix1 n) :=
  (Read.val_main_v3_apply x2 _).trans (congrArg x2 (eq_ix1 _))

/-- The scatter of ones counts each residue's atoms. -/
theorem counts_at (r : Fin 1024) : Read.val_main_v4 (F := Ideal) x2 (ix1 r) = Spec.cnt x2 r := by
  unfold Read.val_main_v4
  rw [LibScatter.scatterAdd_vec_toNat scatter_S1024_S16384x1_S16384_n_0_0_1 rfl rfl rfl rfl _ _ _ (by norm_num) r,
    Read.val_main_v2_apply, Read.val_main_cst_0_apply, Ideal.ofBits_def, Ideal.ofBits_zero_f32, zero_add]
  refine Finset.sum_congr rfl fun n _ => ?_
  rw [v3_at, Read.val_main_v1_apply, Read.val_main_cst_apply, Ideal.ofBits_def, Ideal.ofBits_one_f32]

/-- Row-major order: (b, n, d) of the batch seen frame by frame is row atom b n. -/
theorem v0_at (b : Fin 16) (n : Fin 16384) (d : Fin 320) :
    Read.val_main_v0 (F := Ideal) x0 (ix3 b n d) = x0 (ix2 (atom b n) d) :=
  LibCast3.cast_mc_abc (a := 16) (b := 16384) (c := 320) (m := 262144) rfl x0 _ b n d

/-- The scatter of the atoms' rows sums each feature over each residue's atoms, frame by frame. -/
theorem segsum_at (b : Fin 16) (r : Fin 1024) (d : Fin 320) :
    Read.val_main_v8 (F := Ideal) x0 x2 (ix3 b r d) = Spec.Ref.segsum x0 x2 b r d := by
  unfold Read.val_main_v8
  rw [scatterAdd_3_toNat scatter_S16x1024x320_S16384x1_S16x16384x320_02_1_1_1 rfl rfl rfl rfl _ _ _ (by norm_num) b r d,
    Read.val_main_v7_apply, Read.val_main_v5_apply, Read.val_main_cst_1_apply, Ideal.ofBits_def, Ideal.ofBits_zero_f32,
    zero_add]
  refine Finset.sum_congr rfl fun n _ => ?_
  rw [(id (v3_at x2 n) : Read.val_main_v6 (F := Ideal) x2 _ = _), v0_at]

/-- The residues' means (a count of zero read as one), averaged over each group of ten features: feat k e is entry e of group k. -/
theorem pooled_at (b : Fin 16) (r : Fin 1024) (k : Fin 32) :
    Read.val_main_v17 (F := Ideal) x0 x2 (ix3 b r k) = Spec.Ref.pooled x0 x2 b r k := by
  rw [Read.val_main_v17_apply, Ideal.hostDivf_def, Read.val_main_v15_apply, Read.val_main_cst_3_apply,
    Read.val_main_v16_apply, Read.val_main_cst_4_apply, Ideal.ofBits_def, Ideal.ofBits_def, Ideal.ofBits_zero_f32,
    ofBits_ten, zero_add]
  refine congrArg (fun s => Ideal.div s 10) (Finset.sum_congr rfl fun e _ => ?_)
  rw [(id (eq_ix4 _) : Read.idx_main_v15 (ix3 b r k) e = ix4 b r k e)]
  refine (shapeCast_apply _ shapeCasts_S16x1024x320_S16x1024x32x10 _ (ix3 b r (feat k e)) (by
    rw [Shape.rowMajor_val_three, Shape.rowMajor_val_four]
    show (b.val * 1024 + r.val) * 320 + (k.val * 10 + e.val) = ((b.val * 1024 + r.val) * 32 + k.val) * 10 + e.val
    ring)).trans ?_
  rw [Read.val_main_v13_apply, Ideal.hostDivf_def, segsum_at, Read.val_main_v12_apply, Read.val_main_v11_apply,
    Read.val_main_v10_apply, (id (eq_ix1 _) : Read.idx_main_v11 (Read.idx_main_v12 (ix3 b r (feat k e))) = ix1 r),
    counts_at, Read.val_main_v9_apply, Read.val_main_cst_2_apply, Ideal.maximumf_def, Ideal.ofBits_def,
    Ideal.ofBits_one_f32]
  rfl

/-- A residue number in range is not negative read signed, so the wrap-around select keeps it. -/
theorem v23_at (n : Fin 16384) (hn : (x2 (ix1 n)).toNat < 1024) :
    Read.val_main_v23 (F := Ideal) x2 (ix2 n (0 : Fin 1)) = x2 (ix1 n) := by
  have hz : IntOp.cmpi .slt (x2 (ix1 n)) 0#32 = 0#1 := eq_zero_of_ne_one fun h =>
    absurd ((StableHlo.Predicate.slt_iff_toNat (by omega) (by decide)).mp h) (by simp)
  rw [Read.val_main_v23_apply, (id (eq_ix1 _) : Read.idx_main_v23 (ix2 n (0 : Fin 1)) = ix1 n), Read.val_main_v22_apply,
    Read.val_main_v19_apply, Read.val_main_v18_apply, Read.val_main_c_apply, hz, select_zero]

/-- The gather hands each atom its residue's pooled features. -/
theorem gathered_at (hseg : ∀ n : Fin 16384, (x2 (ix1 n)).toNat < 1024) (b : Fin 16) (n : Fin 16384) (k : Fin 32) :
    Read.val_main_v24 (F := Ideal) x0 x2 (ix3 b n k) = Spec.Ref.pooled x0 x2 b (Spec.segOf x2 hseg n) k := by
  unfold Read.val_main_v24
  rw [gather_3 gather_S16x1024x32_S16384x1_S16x16384x32_02_1_n_n_1_1_16132 rfl rfl rfl rfl rfl _
    (Read.val_main_v23 (F := Ideal) x2) (by norm_num) b n k (Spec.segOf x2 hseg n)
    (congrArg BitVec.toNat (v23_at x2 n (hseg n)) :), pooled_at]

/-- The conditioning numbers are the same in every frame. -/
theorem v26_at (b : Fin 16) (n : Fin 16384) (q : Fin 3) :
    Read.val_main_v26 (F := Ideal) x1 (ix3 b n q) = x1 (ix2 n q) :=
  ((Read.val_main_v26_apply x1 _).trans (Read.val_main_v25_apply x1 _)).trans (congrArg x1 (eq_ix2 _))

/-- The join along the last axis: 32 pooled features, then the 3 conditioning numbers. -/
theorem input_at (hseg : ∀ n : Fin 16384, (x2 (ix1 n)).toNat < 1024) (b : Fin 16) (n : Fin 16384) (i : Fin 35) :
    Read.val_main_v27 (F := Ideal) x0 x1 x2 (ix3 b n i) = Spec.Ref.input x0 x1 x2 hseg b n i := by
  unfold Read.val_main_v27 Spec.Ref.input
  by_cases h : i.val < 32
  · rw [dif_pos h, ← gathered_at x0 x2 hseg]
    refine concatenate_pair_apply_left (s₁ := S16x16384x32) 2 _ _ _ (ix3 b n i) rfl (ix3 b n ⟨i.val, h⟩) fun ax => ?_
    match ax with | ⟨0, _⟩ => rfl | ⟨1, _⟩ => rfl | ⟨2, _⟩ => rfl
  · rw [dif_neg h, ← v26_at x1 b]
    refine concatenate_pair_apply_right (s₁ := S16x16384x32) (s₂ := S16x16384x3) 2 _ _ _ (ix3 b n i) rfl rfl (ix3 b n ⟨i.val - 32, by omega⟩)
      (fun ax hax => ?_) (by show i.val - 32 + 32 = i.val; omega)
    match ax with | ⟨0, _⟩ => rfl | ⟨1, _⟩ => rfl | ⟨2, _⟩ => exact absurd rfl hax

/-- Row-major order again: row atom b n of the flat inputs is (b, n). -/
theorem v28_at (b : Fin 16) (n : Fin 16384) (i : Fin 35) :
    Read.val_main_v28 (F := Ideal) x0 x1 x2 (ix2 (atom b n) i) = Read.val_main_v27 (F := Ideal) x0 x1 x2 (ix3 b n i) :=
  shapeCast_apply _ _ _ _ (by rw [Shape.rowMajor_val_three, Shape.rowMajor_val_two]; rfl)

/-- The first layer before the rectifier. -/
theorem pre_at (hseg : ∀ n : Fin 16384, (x2 (ix1 n)).toNat < 1024) (b : Fin 16) (n : Fin 16384) (j : Fin 512) :
    Read.val_main_v32 (F := Ideal) x0 x1 x2 x3 x4 (ix2 (atom b n) j) = Spec.Ref.pre x0 x1 x2 x3 x4 hseg b n j := by
  rw [Read.val_main_v32_apply, Ideal.addf_def, Read.val_main_v29_apply, Read.val_main_v31_apply, Read.val_main_v30_apply]
  refine congrArg₂ (· + ·) (Finset.sum_congr rfl fun i _ => ?_) (congrArg x4 (eq_ix1 _))
  rw [(id (eq_ix2 _) : Read.lidx_main_v29 (ix2 (atom b n) j) i = ix2 (atom b n) i),
    (id (eq_ix2 _) : Read.ridx_main_v29 (ix2 (atom b n) j) i = ix2 i j), v28_at, input_at x0 x1 x2 hseg]

/-- A vector of 512 spread over the rows reads, at (r, j), its entry j. -/
theorem row_at (y : (⟨S512, .f32⟩ : BufTy).Contents (Elt Ideal)) (r : Fin 262144) (j : Fin 512) :
    Read.val_main_v36 (F := Ideal) y (ix2 r j) = y (ix1 j) :=
  ((Read.val_main_v36_apply y _).trans (Read.val_main_v35_apply y _)).trans (congrArg y (eq_ix1 _))

/-- The hidden layer (rectified, centred, scaled, then the affine pair) and the second layer: the reference's result is the specification's. -/
theorem ref_value (hseg : ∀ n : Fin 16384, (x2 (ix1 n)).toNat < 1024) (b : Fin 16) (n : Fin 16384) (o : Fin 3) :
    Read.val_main_v53 (F := Ideal) x0 x1 x2 x3 x4 x5 x6 x7 x8 x9 x10 (ix2 (atom b n) o)
      = Spec.Ref.out x0 x1 x2 x3 x4 x5 x6 x7 x8 x9 x10 hseg b n o := by
  rw [Read.val_main_v53_apply, Ideal.addf_def, Read.val_main_v50_apply, Read.val_main_v52_apply, Read.val_main_v51_apply]
  refine congrArg₂ (· + ·) (Finset.sum_congr rfl fun j _ => ?_) (congrArg x10 (eq_ix1 _))
  rw [(id (eq_ix2 _) : Read.lidx_main_v50 (ix2 (atom b n) o) j = ix2 (atom b n) j),
    (id (eq_ix2 _) : Read.ridx_main_v50 (ix2 (atom b n) o) j = ix2 j o),
    Read.val_main_v49_apply, Read.val_main_v46_apply, Read.val_main_v43_apply, Read.val_main_v37_apply,
    Read.val_main_v34_apply, pre_at x0 x1 x2 x3 x4 hseg, Read.val_main_v33_apply, Read.val_main_cst_6_apply, row_at,
    (id (row_at _ _ j) : Read.val_main_v42 (F := Ideal) x8 _ = _), Read.val_main_v40_apply, Read.val_main_v39_apply,
    Read.val_main_v38_apply, Read.val_main_cst_7_apply, (id (row_at x5 _ j) : Read.val_main_v45 (F := Ideal) x5 _ = _),
    (id (row_at x6 _ j) : Read.val_main_v48 (F := Ideal) x6 _ = _)]
  simp only [Ideal.addf_def, Ideal.mulf_def, Ideal.subf_def, Ideal.maximumf_def, Ideal.hostUnary_rsqrt_def,
    Ideal.ofBits_def, Ideal.ofBits_zero_f32]
  rfl

end Stages

end Cert.RefValue
-- ==== Proof.Bridge.lean ====
import proofs.«402796_j36103495090325_3_alg».proof.Proof.Spec

noncomputable section

namespace Cert.Bridge

open Idealize.ShloMosaic Idealize.ShloMosaic.ValueIdx Cert.Spec

/-- The 320 features are 32 groups of 10. -/
theorem sum_feat {M : Type*} [AddCommMonoid M] (g : Fin 320 → M) :
    ∑ d : Fin 320, g d = ∑ k : Fin 32, ∑ e : Fin 10, g (feat k e) := by
  rw [← Equiv.sum_comp (finProdFinEquiv : Fin 32 × Fin 10 ≃ Fin 320) g, Fintype.sum_prod_type]
  refine Finset.sum_congr rfl fun k _ => Finset.sum_congr rfl fun e _ => congrArg g (Fin.ext ?_)
  simp only [finProdFinEquiv_apply_val, feat]
  omega

/-- The 16384 atoms are 2 halves of 16 tiles of 512. -/
theorem sum_tiles {M : Type*} [AddCommMonoid M] (g : Fin 16384 → M) :
    ∑ n : Fin 16384, g n = ∑ p : Fin 2, ∑ t : Fin 16, ∑ a : Fin 512, g (tileAtom p t a) := by
  rw [← Equiv.sum_comp (finProdFinEquiv : Fin 2 × Fin 8192 ≃ Fin 16384) g, Fintype.sum_prod_type]
  refine Finset.sum_congr rfl fun p _ => ?_
  rw [← Equiv.sum_comp (finProdFinEquiv : Fin 16 × Fin 512 ≃ Fin 8192)
    (fun m => g ((finProdFinEquiv : Fin 2 × Fin 8192 ≃ Fin 16384) (p, m))), Fintype.sum_prod_type]
  refine Finset.sum_congr rfl fun t _ => Finset.sum_congr rfl fun a _ => congrArg g (Fin.ext ?_)
  simp only [finProdFinEquiv_apply_val, tileAtom]
  omega

theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Over the reals T / (c * 10) = (∑ e, S e / c) / 10 because T = ∑ e, S e. -/
theorem pool_alg {N : Type*} (S : Finset N) (X : N → Fin 10 → ℝ) :
    (∑ n ∈ S, ∑ e, (X n e : EReal)) * Ideal.div 1 (max (∑ _n ∈ S, (1 : EReal)) 1 * 10)
      = Ideal.div (∑ e, Ideal.div (∑ n ∈ S, (X n e : EReal)) (max (∑ _n ∈ S, (1 : EReal)) 1)) 10 := by
  have hpos : (0 : ℝ) < max (∑ _n ∈ S, (1 : ℝ)) 1 := lt_max_of_lt_right one_pos
  have hmax (a b : ℝ) : max (a : EReal) b = ((max a b : ℝ) : EReal) := (EReal.coe_strictMono.monotone.map_max).symm
  simp only [← EReal.coe_one, ← coe_sum, hmax]
  generalize max (∑ _n ∈ S, (1 : ℝ)) 1 = c at hpos ⊢
  rw [show (10 : EReal) = ((10 : ℝ) : EReal) from rfl, ← EReal.coe_mul, Ideal.div_coe (by positivity), Ideal.div_coe (by positivity)]
  simp only [Ideal.div_coe hpos.ne', ← EReal.coe_mul, ← coe_sum, EReal.coe_eq_coe_iff]
  rw [Finset.sum_comm, ← Finset.sum_mul]
  field_simp

variable (x : SX.Idx → EReal) (cond : SC.Idx → EReal) (seg : IVec SS 32) (W1 : SW1.Idx → EReal)
  (b1 gamma beta mean var : SH.Idx → EReal) (W2 : SW2.Idx → EReal) (b2 : SB2.Idx → EReal)
  (hx : ∀ i, ∃ r : ℝ, x i = (r : EReal)) (hseg : ∀ n : Fin 16384, (seg (ix1 n)).toNat < 1024)
  (r : Fin 1024) (b : Fin 16) (n : Fin 16384) (k : Fin 32) (j : Fin 512)

/-- Column k of the pooling matrix is the indicator of group k. -/
theorem bins_eq : Ker.bins x b n k = ∑ e : Fin 10, x (ix2 (atom b n) (feat k e)) := by
  have h (k' : Fin 32) (e : Fin 10) : (feat k' e).val / 10 = k.val ↔ k' = k := by
    simp only [feat, Fin.ext_iff]; omega
  simp only [Ker.bins, Ker.pm, sum_feat, h, mul_ite, mul_one, mul_zero]
  rw [Finset.sum_comm]
  simp only [Finset.sum_ite_eq', Finset.mem_univ, if_true]

/-- Regrouping the atoms by half and tile. -/
theorem halves_eq : Ker.half x seg 0 r b k + Ker.half x seg 1 r b k
    = ∑ n : Fin 16384, if inSeg seg n r then ∑ e : Fin 10, x (ix2 (atom b n) (feat k e)) else 0 := by
  rw [sum_tiles, Fin.sum_univ_two]
  simp only [Ker.half, Ker.contrib, Ker.oh, bins_eq, ite_mul, one_mul, zero_mul]

/-- The kernel's total times the folded reciprocal is the reference's mean of means. -/
theorem pooled_eq (xr : SX.Idx → ℝ) (hxr : ∀ i, x i = (xr i : EReal)) :
    Ker.pooled x seg r b k = Ref.pooled x seg b r k := by
  unfold Ker.pooled Ker.inv Ref.pooled Ref.segmean Ref.segsum cnt
  rw [halves_eq]
  simp only [hxr, ← Finset.sum_filter]
  exact pool_alg _ fun n e => xr (ix2 (atom b n) (feat k e))

/-- Row n of the membership matrix is the indicator of the atom's residue. -/
theorem perAtom_eq : Ker.perAtom x seg n b k = Ker.pooled x seg (segOf seg hseg n) b k := by
  have h (r : Fin 1024) : inSeg seg n r ↔ r = segOf seg hseg n := ⟨fun h => Fin.ext h.symm, by rintro rfl; rfl⟩
  simp only [Ker.perAtom, Ker.oh, h, ite_mul, one_mul, zero_mul, Finset.sum_ite_eq', Finset.mem_univ, if_true]

/-- The first layer's 35 inputs are the 32 pooled features and the 3 conditioning numbers. -/
theorem input_sum : ∑ i : Fin 35, Ref.input x cond seg hseg b n i * W1 (ix2 i j)
    = (∑ k : Fin 32, Ref.pooled x seg b (segOf seg hseg n) k * W1 (ix2 (binRow k) j))
      + ∑ q : Fin 3, cond (ix2 n q) * W1 (ix2 (condRow q) j) := by
  refine (Fin.sum_univ_add (a := 32) (b := 3) _).trans (congrArg₂ (· + ·) ?_ ?_) <;>
    refine Finset.sum_congr rfl fun q _ => ?_
  · rw [Ref.input, dif_pos (show (Fin.castAdd 3 q : Fin 35).val < 32 from q.isLt)]; rfl
  · rw [Ref.input, dif_neg (show ¬ (Fin.natAdd 32 q : Fin 35).val < 32 from Nat.not_lt.mpr (Nat.le_add_right 32 q.val))]
    have hq : (⟨(Fin.natAdd 32 q : Fin 35).val - 32, by omega⟩ : Fin 3) = q := Fin.ext (Nat.add_sub_cancel_left ..)
    exact congrArg (fun z => cond (ix2 n z) * W1 (ix2 (condRow q) j)) hq

include hx in
theorem out_eq (o : Fin 3) :
    Ker.out x cond seg W1 b1 gamma beta mean var W2 b2 b n o
      = Ref.out x cond seg W1 b1 gamma beta mean var W2 b2 hseg b n o := by
  choose xr hxr using hx
  simp only [Ker.out, Ref.out, Ker.pre, Ker.condPart, Ref.pre, input_sum, add_assoc, perAtom_eq x seg hseg,
    fun r b k => pooled_eq x seg r b k xr hxr]

end Cert.Bridge

end
-- ==== Proof.PreFacts.lean ====
import proofs.«402796_j36103495090325_3_alg».proof.Defs
import proofs.«402796_j36103495090325_3_alg».proof.Proof.Gen.Pre_finite_inputs
import Idealize.ShloMosaic.Lib.ReduceAll
import Idealize.ShloMosaic.Lib.StableHlo.Predicate
import Idealize.ShloMosaic.Lib.ValueIdx

namespace Cert.PreFacts

open Idealize.ShloMosaic Cert.Pre_finite_inputs

instance : Subsingleton S_.Idx := ⟨fun a b => funext fun d => d.elim0⟩

/-- |x| < +∞ excludes both infinities. -/
theorem real_of_abs_lt_inf (x : EReal)
    (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e, Ideal.cmp, StableHlo.Predicate.ofBool_eq_one_iff] at h
  have h' := max_lt_iff.1 (of_decide_eq_true h)
  induction x using EReal.rec with
  | bot => simp at h'
  | coe r => exact ⟨r, rfl⟩
  | top => simp at h'

/-- A word that is not negative read signed reads the same unsigned. -/
theorem toNat_lt (w : BitVec 32) (h0 : IntOp.cmpi .sge w (0#32) = 1#1)
    (h1 : IntOp.cmpi .slt w (1024#32) = 1#1) : w.toNat < 1024 := by
  rw [IntOp.cmpi_sge] at h0
  rw [IntOp.cmpi_slt] at h1
  have := BitVec.toInt_eq_toNat_cond w
  have e0 : (0#32 : BitVec 32).toInt = 0 := by decide
  have e1 : (1024#32 : BitVec 32).toInt = 1024 := by decide
  split at this <;> omega

variable [Cert.Pre_finite_inputs.Facts]
variable (x0 : FVec Ideal S262144x320 .f32) (x1 : FVec Ideal S16384x3 .f32) (x2 : IVec S16384 32)
  (x3 : FVec Ideal S35x512 .f32) (x4 : FVec Ideal S512 .f32) (x5 : FVec Ideal S512 .f32) (x6 : FVec Ideal S512 .f32)
  (x7 : FVec Ideal S512 .f32) (x8 : FVec Ideal S512 .f32) (x9 : FVec Ideal S512x3 .f32) (x10 : FVec Ideal S3 .f32)
  (h : Cert.Pre_finite_inputs.fn (F := Ideal) x0 x1 x2 x3 x4 x5 x6 x7 x8 x9 x10 = fun _ => 1#1)
include h

/-- The precondition is a conjunction of eleven bits: the first bounds the first array's entries, the last the segment numbers. -/
theorem decoded : (∀ i, ∃ r : ℝ, x0 i = (r : EReal)) ∧ ∀ n : Fin 16384, (x2 (ValueIdx.ix1 n)).toNat < 1024 := by
  have e := congrFun h ValueIdx.ix0
  unfold fn fn_part1 fn_part2 fn_part3 at e
  dsimp only at e
  simp only [andi, IntOp.andi_eq_one] at e
  exact ⟨fun i => real_of_abs_lt_inf (x0 i) (Host.reduce_andi_all _ _ _ _ _ e.1.1.1.1.1.1.1.1.1.1 i), fun n =>
    have e' := IntOp.andi_eq_one.1 (Host.reduce_andi_all _ _ _ _ _ e.2 (ValueIdx.ix1 n))
    toNat_lt _ e'.1 e'.2⟩

theorem x_real : ∀ i, ∃ r : ℝ, x0 i = (r : EReal) := (decoded x0 x1 x2 x3 x4 x5 x6 x7 x8 x9 x10 h).1

theorem seg_range : ∀ n : Fin 16384, (x2 (ValueIdx.ix1 n)).toNat < 1024 := (decoded x0 x1 x2 x3 x4 x5 x6 x7 x8 x9 x10 h).2

end Cert.PreFacts
-- ==== Proof.lean ====
import proofs.«402796_j36103495090325_3_alg».proof.Defs
import proofs.«402796_j36103495090325_3_alg».proof.Proof.Gen.Kernel
import proofs.«402796_j36103495090325_3_alg».proof.Proof.Gen.KernelIdeal
import proofs.«402796_j36103495090325_3_alg».proof.Proof.Gen.ReferenceIdeal
import proofs.«402796_j36103495090325_3_alg».proof.Proof.Gen.Pre_finite_inputs
import proofs.«402796_j36103495090325_3_alg».proof.Proof.BitsRunAll
import proofs.«402796_j36103495090325_3_alg».proof.Proof.RunAll
import proofs.«402796_j36103495090325_3_alg».proof.Proof.KValue
import proofs.«402796_j36103495090325_3_alg».proof.Proof.RefValue
import proofs.«402796_j36103495090325_3_alg».proof.Proof.Bridge
import proofs.«402796_j36103495090325_3_alg».proof.Proof.PreFacts

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

open Cert.Kernel.Gen in
theorem frame_k : Cert.frame_Kernel := fun m ρ _ =>
  (θ_run Cert.Kernel.defs _ _).mono (fun r h c => by
    exact ⟨(h c _ (by decide)).trans (V8_main_arg0 m _ c),
      (h c _ (by decide)).trans (V8_main_arg1 m _ c),
      (h c _ (by decide)).trans (V8_main_arg2 m _ c),
      (h c _ (by decide)).trans (V8_main_arg3 m _ c),
      (h c _ (by decide)).trans (V8_main_arg4 m _ c),
      (h c _ (by decide)).trans (V8_main_arg5 m _ c),
      (h c _ (by decide)).trans (V8_main_arg6 m _ c),
      (h c _ (by decide)).trans (V8_main_arg7 m _ c),
      (h c _ (by decide)).trans (V8_main_arg8 m _ c),
      (h c _ (by decide)).trans (V8_main_arg9 m _ c),
      (h c _ (by decide)).trans (V8_main_arg10 m _ c)⟩) (Cert.Kernel.Run.run_all m ρ)
open Cert.KernelIdeal.Gen in
theorem frame_ki : Cert.frame_KernelIdeal := fun m ρ _ =>
  (θ_run Cert.KernelIdeal.defs _ _).mono (fun r h c => by
    exact ⟨(h c _ (by decide)).trans (V8_main_arg0 m _ c),
      (h c _ (by decide)).trans (V8_main_arg1 m _ c),
      (h c _ (by decide)).trans (V8_main_arg2 m _ c),
      (h c _ (by decide)).trans (V8_main_arg3 m _ c),
      (h c _ (by decide)).trans (V8_main_arg4 m _ c),
      (h c _ (by decide)).trans (V8_main_arg5 m _ c),
      (h c _ (by decide)).trans (V8_main_arg6 m _ c),
      (h c _ (by decide)).trans (V8_main_arg7 m _ c),
      (h c _ (by decide)).trans (V8_main_arg8 m _ c),
      (h c _ (by decide)).trans (V8_main_arg9 m _ c),
      (h c _ (by decide)).trans (V8_main_arg10 m _ c)⟩) (Cert.KernelIdeal.Run.run_all m ρ)
theorem frame_ri : Cert.frame_ReferenceIdeal := fun m ρ _ =>
  (θ_run Cert.ReferenceIdeal.defs _ _).mono (fun _ h c => (h c).2) (Cert.ReferenceIdeal.Value.run (F := Ideal) m ρ)

/-- A row of the flat batch is atom `a % 16384` of frame `a / 16384`. -/
theorem atom_surj (a : Fin 262144) : ∃ (b : Fin 16) (n : Fin 16384), a = Cert.Spec.atom b n :=
  ⟨⟨a.val / 16384, by omega⟩, ⟨a.val % 16384, by omega⟩, Fin.ext (by simp only [Cert.Spec.atom]; omega)⟩

open Cert.KernelIdeal.Gen in
/-- Both results are one function of the arguments: the kernel's is `Spec.Ker.out`, the reference's `Spec.Ref.out`, equal for finite x and residue numbers below 1024. -/
theorem algebraic : Cert.algebraic_KernelIdeal_ReferenceIdeal := by
  intro m ρ m' ρ' hpre hagree
  refine ⟨fun c => Cert.KernelIdeal.Gen.V8 m (Cert.KernelIdeal.Run.outsB m) c Cert.KernelIdeal.main_v32,
    (θ_run Cert.KernelIdeal.defs _ _).mono (fun r h c => by
      exact ⟨h c _ (by decide), (h c _ (by decide)).trans (V8_main_arg0 m _ c),
        (h c _ (by decide)).trans (V8_main_arg1 m _ c),
        (h c _ (by decide)).trans (V8_main_arg2 m _ c),
        (h c _ (by decide)).trans (V8_main_arg3 m _ c),
        (h c _ (by decide)).trans (V8_main_arg4 m _ c),
        (h c _ (by decide)).trans (V8_main_arg5 m _ c),
        (h c _ (by decide)).trans (V8_main_arg6 m _ c),
        (h c _ (by decide)).trans (V8_main_arg7 m _ c),
        (h c _ (by decide)).trans (V8_main_arg8 m _ c),
        (h c _ (by decide)).trans (V8_main_arg9 m _ c),
        (h c _ (by decide)).trans (V8_main_arg10 m _ c)⟩) (Cert.KernelIdeal.Run.run_all m ρ), ?_⟩
  refine (θ_run Cert.ReferenceIdeal.defs _ _).mono (fun _ h c => ⟨(h c).1.trans ?_, (h c).2⟩)
    (Cert.ReferenceIdeal.Value.run (F := Ideal) m' ρ')
  have hx := Cert.PreFacts.x_real _ _ _ _ _ _ _ _ _ _ _ (hpre c)
  have hseg := Cert.PreFacts.seg_range _ _ _ _ _ _ _ _ _ _ _ (hpre c)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  refine (Cert.ReferenceIdeal.Read.val_main_v53_eq (F := Ideal) _ _ _ _ _ _ _ _ _ _ _).trans ?_
  funext i
  obtain ⟨a, o, rfl⟩ : ∃ (a : Fin 262144) (o : Fin 3), i = ix2 a o := ⟨i 0, i 1, eq_ix2 i⟩
  obtain ⟨b, n, rfl⟩ := atom_surj a
  rw [Cert.RefValue.ref_value _ _ _ _ _ _ _ _ _ _ _ hseg b n o,
    ← Cert.Bridge.out_eq _ _ _ _ _ _ _ _ _ _ _ hx hseg b n o]
  exact (Cert.KernelIdeal.KValue.kernel_value m c hseg b n o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
